-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x10000x64 : Shape := ⟨3, ![4, 10000, 64]⟩
abbrev S4x10000x128 : Shape := ⟨3, ![4, 10000, 128]⟩
abbrev S2x160000 : Shape := ⟨2, ![2, 160000]⟩
abbrev S128x192 : Shape := ⟨2, ![128, 192]⟩
abbrev S128 : Shape := ⟨1, ![128]⟩
abbrev S384x64 : Shape := ⟨2, ![384, 64]⟩
abbrev S384x128 : Shape := ⟨2, ![384, 128]⟩
abbrev S384 : Shape := ⟨1, ![384]⟩
abbrev S_ : Shape := ⟨0, ![]⟩

class Facts : Prop where
  bcast_S_S4x10000x64 : S_.BroadcastsInDim S4x10000x64 (![] : Fin 0 → Fin S4x10000x64.rank)
  reducesTo_S4x10000x64_S_d0_1_2 : S4x10000x64.ReducesTo [0, 1, 2] S_
  h_S_ : 0 < S_.numel
  bcast_S_S4x10000x128 : S_.BroadcastsInDim S4x10000x128 (![] : Fin 0 → Fin S4x10000x128.rank)
  reducesTo_S4x10000x128_S_d0_1_2 : S4x10000x128.ReducesTo [0, 1, 2] S_
  bcast_S_S128x192 : S_.BroadcastsInDim S128x192 (![] : Fin 0 → Fin S128x192.rank)
  reducesTo_S128x192_S_d0_1 : S128x192.ReducesTo [0, 1] S_
  bcast_S_S128 : S_.BroadcastsInDim S128 (![] : Fin 0 → Fin S128.rank)
  reducesTo_S128_S_d0 : S128.ReducesTo [0] S_
  bcast_S_S384x64 : S_.BroadcastsInDim S384x64 (![] : Fin 0 → Fin S384x64.rank)
  reducesTo_S384x64_S_d0_1 : S384x64.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg2 : IVec S2x160000 32) (main_arg8 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_c_14 : IVec S_ 32 := constantI S_ 32 0#32
  let main_v39 : IVec S2x160000 32 := broadcastInDim S2x160000 ![] bcast_S_S2x160000 main_c_14
  let main_v40 : IVec S2x160000 1 := cmpi .sge main_arg2 main_v39
  let main_c_15 : IVec S_ 1 := constantI S_ 1 1#1
  let main_v41 : IVec S_ 1 := (fun x v => Host.reduce IntOp.andi x v reducesTo_S2x160000_S_d0_1 h_S_) main_v40 main_c_15
  let main_v42 : IVec S_ 1 := andi main_v38 main_v41
  let main_c_16 : IVec S_ 32 := constantI S_ 32 10000#32
  let main_v43 : IVec S2x160000 32 := broadcastInDim S2x160000 ![] bcast_S_S2x160000 main_c_16
  let main_v44 : IVec S2x160000 1 := cmpi .slt main_arg2 main_v43
  let main_c_17 : IVec S_ 1 := constantI S_ 1 1#1
  let main_v45 : IVec S_ 1 := (fun x v => Host.reduce IntOp.andi x v reducesTo_S2x160000_S_d0_1 h_S_) main_v44 main_c_17
  let main_v46 : IVec S_ 1 := andi main_v42 main_v45
  main_v46

def fn_part1 {F : FTy → Type} [FloatOps F] (main_arg2 : IVec S2x160000 32) (main_arg5 : FVec F S384x64 .f32) (main_arg6 : FVec F S384x128 .f32) (main_arg7 : FVec F S384 .f32) (main_arg8 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x64 .f32 := Host.absf main_arg5
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S384x128 .f32 := Host.absf main_arg6
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg2 main_arg8 main_v33

def fn {F : FTy → Type} [FloatOps F] (main_arg0 : FVec F S4x10000x64 .f32) (main_arg1 : FVec F S4x10000x128 .f32) (main_arg2 : IVec S2x160000 32) (main_arg3 : FVec F S128x192 .f32) (main_arg4 : FVec F S128 .f32) (main_arg5 : FVec F S384x64 .f32) (main_arg6 : FVec F S384x128 .f32) (main_arg7 : FVec F S384 .f32) (main_arg8 : FVec F S384 .f32) : IVec S_ 1 :=
  let main_v0 : FVec F S4x10000x64 .f32 := Host.absf main_arg0
  let main_cst : FVec F S_ .f32 := constant S_ .f32 0x7F800000#32
  let main_v1 : FVec F S4x10000x64 .f32 := broadcastInDim S4x10000x64 ![] bcast_S_S4x10000x64 main_cst
  let main_v2 : IVec S4x10000x64 1 := cmpf .olt main_v0 main_v1
  let main_c : IVec S_ 1 := constantI S_ 1 1#1
  let main_v3 : IVec S_ 1 := (fun x v => Host.reduce IntOp.andi x v reducesTo_S4x10000x64_S_d0_1_2 h_S_) main_v2 main_c
  let main_v4 : FVec F S4x10000x128 .f32 := Host.absf main_arg1
  let main_cst_0 : FVec F S_ .f32 := constant S_ .f32 0x7F800000#32
  let main_v5 : FVec F S4x10000x128 .f32 := broadcastInDim S4x10000x128 ![] bcast_S_S4x10000x128 main_cst_0
  let main_v6 : IVec S4x10000x128 1 := cmpf .olt main_v4 main_v5
  let main_c_1 : IVec S_ 1 := constantI S_ 1 1#1
  let main_v7 : IVec S_ 1 := (fun x v => Host.reduce IntOp.andi x v reducesTo_S4x10000x128_S_d0_1_2 h_S_) main_v6 main_c_1
  let main_v8 : IVec S_ 1 := andi main_v3 main_v7
  let main_v9 : FVec F S128x192 .f32 := Host.absf main_arg3
  let main_cst_2 : FVec F S_ .f32 := constant S_ .f32 0x7F800000#32
  let main_v10 : FVec F S128x192 .f32 := broadcastInDim S128x192 ![] bcast_S_S128x192 main_cst_2
  let main_v11 : IVec S128x192 1 := cmpf .olt main_v9 main_v10
  let main_c_3 : IVec S_ 1 := constantI S_ 1 1#1
  let main_v12 : IVec S_ 1 := (fun x v => Host.reduce IntOp.andi x v reducesTo_S128x192_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_v13 main_v16
-- ==== Kernel.lean ====
abbrev S4x10000x64 : Shape := ⟨3, ![4, 10000, 64]⟩
abbrev S4x10000x128 : Shape := ⟨3, ![4, 10000, 128]⟩
abbrev S2x160000 : Shape := ⟨2, ![2, 160000]⟩
abbrev S128x192 : Shape := ⟨2, ![128, 192]⟩
abbrev S128 : Shape := ⟨1, ![128]⟩
abbrev S384x64 : Shape := ⟨2, ![384, 64]⟩
abbrev S384x128 : Shape := ⟨2, ![384, 128]⟩
abbrev S384 : Shape := ⟨1, ![384]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S10240x10240 : Shape := ⟨2, ![10240, 10240]⟩
abbrev S170000x1 : Shape := ⟨2, ![170000, 1]⟩
abbrev S170000x2 : Shape := ⟨2, ![170000, 2]⟩
abbrev S4x10000x192 : Shape := ⟨3, ![4, 10000, 192]⟩
abbrev S10000x4x192 : Shape := ⟨3, ![10000, 4, 192]⟩
abbrev S10000x768 : Shape := ⟨2, ![10000, 768]⟩
abbrev S10240x768 : Shape := ⟨2, ![10240, 768]⟩
abbrev S1024x1024 : Shape := ⟨2, ![1024, 1024]⟩
abbrev S1024x768 : Shape := ⟨2, ![1024, 768]⟩
abbrev S192x128 : Shape := ⟨2, ![192, 128]⟩
abbrev S64x384 : Shape := ⟨2, ![64, 384]⟩
abbrev S128x384 : Shape := ⟨2, ![128, 384]⟩
abbrev S1x2000x192 : Shape := ⟨3, ![1, 2000, 192]⟩
abbrev S1x2000x64 : Shape := ⟨3, ![1, 2000, 64]⟩
abbrev S1x2000x128 : Shape := ⟨3, ![1, 2000, 128]⟩
abbrev S2000x192 : Shape := ⟨2, ![2000, 192]⟩
abbrev S2000x64 : Shape := ⟨2, ![2000, 64]⟩
abbrev S2000x128 : Shape := ⟨2, ![2000, 128]⟩
abbrev S1x128 : Shape := ⟨2, ![1, 128]⟩
abbrev S2000x384 : Shape := ⟨2, ![2000, 384]⟩
abbrev S1x384 : Shape := ⟨2, ![1, 384]⟩

abbrev nBuf : Space → Nat
  | .hbm => 54
  | .vmem => 26
  | .smem => 0
  | _ => 0

abbrev bufTy : (tb : Table) → Fin (tcTables nBuf tb) → BufTy
  | .hbm, ⟨0, _⟩ => ⟨S4x10000x64, .f32⟩
  | .hbm, ⟨1, _⟩ => ⟨S4x10000x128, .f32⟩
  | .hbm, ⟨2, _⟩ => ⟨S2x160000, .i32⟩
  | .hbm, ⟨3, _⟩ => ⟨S128x192, .f32⟩
  | .hbm, ⟨4, _⟩ => ⟨S128, .f32⟩
  | .hbm, ⟨5, _⟩ => ⟨S384x64, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S10000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S1x160000, .i32⟩
  | .hbm, ⟨14, _⟩ => ⟨S160000, .i32⟩
  | .hbm, ⟨15, _⟩ => ⟨S170000, .i32⟩
  | .hbm, ⟨16, _⟩ => ⟨S_, .f32⟩
  | .hbm, ⟨17, _⟩ => ⟨S10240x10240, .f32⟩
  | .hbm, ⟨18, _⟩ => ⟨S_, .i32⟩
  | .hbm, ⟨19, _⟩ => ⟨S170000, .i32⟩
  | .hbm, ⟨20, _⟩ => ⟨S170000, .i1⟩
  | .hbm, ⟨21, _⟩ => ⟨S_, .i32⟩
  | .hbm, ⟨22, _⟩ => ⟨S170000, .i32⟩
  | .hbm, ⟨23, _⟩ => ⟨S170000, .i32⟩
  | .hbm, ⟨24, _⟩ => ⟨S170000, .i32⟩
  | .hbm, ⟨25, _⟩ => ⟨S_, .i32⟩
  | .hbm, ⟨26, _⟩ => ⟨S170000, .i32⟩
  | .hbm, ⟨27, _⟩ => ⟨S170000, .i1⟩
  | .hbm, ⟨28, _⟩ => ⟨S_, .i32⟩
  | .hbm, ⟨29, _⟩ => ⟨S170000, .i32⟩
  | .hbm, ⟨30, _⟩ => ⟨S170000, .i32⟩
  | .hbm, ⟨31, _⟩ => ⟨S170000, .i32⟩
  | .hbm, ⟨32, _⟩ => ⟨S170000x1, .i32⟩
  | .hbm, ⟨33, _⟩ => ⟨S170000x1, .i32⟩
  | .hbm, ⟨34, _⟩ => ⟨S170000x2, .i32⟩
  | .hbm, ⟨35, _⟩ => ⟨S_, .f32⟩
  | .hbm, ⟨36, _⟩ => ⟨S170000, .f32⟩
  | .hbm, ⟨37, _⟩ => ⟨S10240x10240, .f32⟩
  | .hbm, ⟨38, _⟩ => ⟨S10240x10240, .bf16⟩
  | .hbm, ⟨39, _⟩ => ⟨S4x10000x192, .f32⟩
  | .hbm, ⟨40, _⟩ => ⟨S10000x4x192, .f32⟩
  | .hbm, ⟨41, _⟩ => ⟨S10000x768, .f32⟩
  | .hbm, ⟨42, _⟩ => ⟨S_, .i32⟩
  | .hbm, ⟨43, _⟩ => ⟨S_, .f32⟩
  | .hbm, ⟨44, _⟩ => ⟨S10240x768, .f32⟩
  | .hbm, ⟨45, _⟩ => ⟨S10240x768, .f32⟩
  | .hbm, ⟨46, _⟩ => ⟨S10240x768, .f32⟩
  | .hbm, ⟨47, _⟩ => ⟨S10000x768, .f32⟩
  | .hbm, ⟨48, _⟩ => ⟨S10000x4x192, .f32⟩
  | .hbm, ⟨49, _⟩ => ⟨S4x10000x192, .f32⟩
  | .hbm, ⟨50, _⟩ => ⟨S192x128, .f32⟩
  | .hbm, ⟨51, _⟩ => ⟨S64x384, .f32⟩
  | .hbm, ⟨52, _⟩ => ⟨S128x384, .f32⟩
  | .hbm, ⟨53, _⟩ => ⟨S4x10000x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | .local _ .vmem, ⟨8, _⟩ => ⟨S1024x1024, .bf16⟩
  | .local _ .vmem, ⟨9, _⟩ => ⟨S1024x768, .f32⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1024x768, .f32⟩
  | .local _ .vmem, ⟨14, _⟩ => ⟨S1x2000x192, .f32⟩
  | .local _ .vmem, ⟨15, _⟩ => ⟨S1x2000x192, .f32⟩
  | .local _ .vmem, ⟨16, _⟩ => ⟨S1x2000x64, .f32⟩
  | .local _ .vmem, ⟨17, _⟩ => ⟨S1x2000x64, .f32⟩
  | .local _ .vmem, ⟨18, _⟩ => ⟨S192x128, .f32⟩
  | .local _ .vmem, ⟨19, _⟩ => ⟨S128, .f32⟩
  | .local _ .vmem, ⟨20, _⟩ => ⟨S64x384, .f32⟩
  | .local _ .vmem, ⟨21, _⟩ => ⟨S128x384, .f32⟩
  | .local _ .vmem, ⟨22, _⟩ => ⟨S384, .f32⟩
  | .local _ .vmem, ⟨23, _⟩ => ⟨S384, .f32⟩
  | .local _ .vmem, ⟨24, _⟩ => ⟨S1x2000x128, .f32⟩
  | .local _ .vmem, ⟨25, _⟩ => ⟨S1x2000x128, .f32⟩
  | _, _ => ⟨S4x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![10, 10], ![false, false]⟩

def k1_cond2 (i : grid1.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2000x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S192x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 2 → Memref sig .tc .vmem S1x2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10240x10240 : S_.BroadcastsInDim S10240x10240 (![] : Fin 0 → Fin S10240x10240.rank)
  bcast_S_S170000 : S_.BroadcastsInDim S170000 (![] : Fin 0 → Fin S170000.rank)
  bcast_S170000_S170000x1_0 : S170000.BroadcastsInDim S170000x1 (![0] : Fin 1 → Fin S170000x1.rank)
  concatenates_S170000x1_S170000x1_S170000x2_d1 : Shape.Concatenates [S170000x1, S170000x1] S170000x2 1
  bitsLt_bf16_f32 : FTy.bits .bf16 < FTy.bits .f32
  concatenates_S4x10000x64_S4x10000x128_S4x10000x192_d2 : Shape.Concatenates [S4x10000x64, S4x10000x128] S4x10000x192 2
  transposes_S4x10000x192_S10000x4x192_1_0_2 : S4x10000x192.Transposes [1, 0, 2] S10000x4x192
  shapeCasts_S10000x4x192_S10000x768 : S10000x4x192.ShapeCasts S10000x768
  pads_S10000x768_S10240x768_02400_000 : S10000x768.Pads (![0, 0] : Fin 2 → Nat) ![240, 0] ![0, 0] S10240x768
  h_S_ : 0 < S_.numel
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S10240x768_S10000x768_0_0 : S10240x768.Slices ![0, 0] S10000x768
  shapeCasts_S10000x768_S10000x4x192 : S10000x768.ShapeCasts S10000x4x192
  transposes_S10000x4x192_S4x10000x192_1_0_2 : S10000x4x192.Transposes [1, 0, 2] S4x10000x192
  transposes_S128x192_S192x128_1_0 : S128x192.Transposes [1, 0] S192x128
  transposes_S384x64_S64x384_1_0 : S384x64.Transposes [1, 0] S64x384
  transposes_S384x128_S128x384_1_0 : S384x128.Transposes [1, 0] S128x384
  inb_S1x2000x192_S1x2000x192_0_0_0 : ∀ a, (![0, 0, 0] : Fin 3 → Nat) a + S1x2000x192.size a ≤ S1x2000x192.size a
  h_S1x2000x192 : 0 < S1x2000x192.numel
  shapeCasts_S1x2000x192_S2000x192 : S1x2000x192.ShapeCasts S2000x192
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S64x384_S64x384_0_0 : ∀ a, (![0, 0] : Fin 2 → Nat) a + S64x384.size a ≤ S64x384.size a
  h_S64x384 : 0 < S64x384.numel
  shapeCasts_S64x384_S64x384 : S64x384.ShapeCasts S64x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  shapeCasts_S2000x128_S1x2000x128 : S2000x128.ShapeCasts S1x2000x128
  scatter_S10240x10240_S170000x2_S170000_n_01_01_1_wf : ScatterDims.WF S10240x10240 S170000x2 S170000 [] [0, 1] [0, 1] 1
  dot_S1024x1024_S1024x768_S1024x768_1_0_0_1_n_n_wf : DotDims.WF S1024x1024 S1024x768 S1024x768 [1] [0] [0] [1] [] []
  dot_S2000x192_S192x128_S2000x128_1_0_0_1_n_n_wf : DotDims.WF S2000x192 S192x128 S2000x128 [1] [0] [0] [1] [] []
  dot_S2000x64_S64x384_S2000x384_1_0_0_1_n_n_wf : DotDims.WF S2000x64 S64x384 S2000x384 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .bf16 = 32 ∨ (Rect.block (s := S10240x10240) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S10240x768.size a
  hwx0_1 : ∀ i : grid0.Coords, EltTy.bits .f32 = 32 ∨ (Rect.block (s := S10240x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S10240x768.size a
  hwx0_2 : ∀ i : grid0.Coords, EltTy.bits .f32 = 32 ∨ (Rect.block (s := S10240x768) S1024x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .bf16 = 32 ∨ (Rect.block (s := S10240x10240) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x768.size a ≤ S10240x768.size a
  hwx1_1 : ∀ i : grid1.Coords, EltTy.bits .f32 = 32 ∨ (Rect.block (s := S10240x768) S1024x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x768.size a ≤ S10240x768.size a
  hwx1_2 : ∀ i : grid1.Coords, EltTy.bits .f32 = 32 ∨ (Rect.block (s := S10240x768) S1024x768.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2000x192.size a ≤ S4x10000x192.size a
  hwx2_0 : ∀ i : grid2.Coords, EltTy.bits .f32 = 32 ∨ (Rect.block (s := S4x10000x192) S1x2000x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2000x64.size a ≤ S4x10000x64.size a
  hwx2_1 : ∀ i : grid2.Coords, EltTy.bits .f32 = 32 ∨ (Rect.block (s := S4x10000x64) S1x2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x128.size a ≤ S192x128.size a
  hwx2_2 : ∀ i : grid2.Coords, EltTy.bits .f32 = 32 ∨ (Rect.block (s := S192x128) S192x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x384.size a ≤ S64x384.size a
  hwx2_4 : ∀ i : grid2.Coords, EltTy.bits .f32 = 32 ∨ (Rect.block (s := S64x384) S64x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x384.size a ≤ S128x384.size a
  hwx2_5 : ∀ i : grid2.Coords, EltTy.bits .f32 = 32 ∨ (Rect.block (s := S128x384) S128x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S384.size a ≤ S384.size a
  hwx2_6 : ∀ i : grid2.Coords, EltTy.bits .f32 = 32 ∨ (Rect.block (s := S384) S384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S384.size a ≤ S384.size a
  hwx2_7 : ∀ i : grid2.Coords, EltTy.bits .f32 = 32 ∨ (Rect.block (s := S384) S384.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x2000x128.size a ≤ S4x10000x128.size a
  hwx2_8 : ∀ i : grid2.Coords, EltTy.bits .f32 = 32 ∨ (Rect.block (s := S4x10000x128) S1x2000x128.size (cc2_transform_8 i) (hinb2_8 i)).WholeWords (EltTy.packing .f32)

variable [Facts₀]

def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S1024x1024_S1024x768_S1024x768_1_0_0_1_n_n : DotDims S1024x1024 S1024x768 S1024x768 where
  lhsContracting := [1]
  rhsContracting := [0]
  lhsNonContracting := [0]
  rhsNonContracting := [1]
  lhsBatch := []
  rhsBatch := []
  wf := dot_S1024x1024_S1024x768_S1024x768_1_0_0_1_n_n_wf
def dot_S2000x192_S192x128_S2000x128_1_0_0_1_n_n : DotDims S2000x192 S192x128 S2000x128 where
  lhsContracting := [1]
  rhsContracting := [0]
  lhsNonContracting := [0]
  rhsNonContracting := [1]
  lhsBatch := []
  rhsBatch := []
  wf := dot_S2000x192_S192x128_S2000x128_1_0_0_1_n_n_wf
def dot_S2000x64_S64x384_S2000x384_1_0_0_1_n_n : DotDims S2000x64 S64x384 S2000x384 where
  lhsContracting := [1]
  rhsContracting := [0]
  lhsNonContracting := [0]
  rhsNonContracting := [1]
  lhsBatch := []
  rhsBatch := []
  wf := dot_S2000x64_S64x384_S2000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v23) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v23) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1024x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1024x768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v32) S1x2000x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1x2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S192x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S64x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S128x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg8) S384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v36) S1x2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4x10000x64 : Shape := ⟨3, ![4, 10000, 64]⟩
abbrev S4x10000x128 : Shape := ⟨3, ![4, 10000, 128]⟩
abbrev S2x160000 : Shape := ⟨2, ![2, 160000]⟩
abbrev S128x192 : Shape := ⟨2, ![128, 192]⟩
abbrev S128 : Shape := ⟨1, ![128]⟩
abbrev S384x64 : Shape := ⟨2, ![384, 64]⟩
abbrev S384x128 : Shape := ⟨2, ![384, 128]⟩
abbrev S384 : Shape := ⟨1, ![384]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S4x10000x192 : Shape := ⟨3, ![4, 10000, 192]⟩
abbrev S_ : Shape := ⟨0, ![]⟩
abbrev S170000x1 : Shape := ⟨2, ![170000, 1]⟩
abbrev S4x170000x192 : Shape := ⟨3, ![4, 170000, 192]⟩
abbrev S1x1x128 : Shape := ⟨3, ![1, 1, 128]⟩
abbrev S4x10000x384 : Shape := ⟨3, ![4, 10000, 384]⟩
abbrev S1x1x384 : Shape := ⟨3, ![1, 1, 384]⟩

abbrev nBuf : Space → Nat
  | .hbm => 102
  | .vmem => 0
  | .smem => 0
  | _ => 0

abbrev bufTy : (tb : Table) → Fin (tcTables nBuf tb) → BufTy
  | .hbm, ⟨0, _⟩ => ⟨S4x10000x64, .f32⟩
  | .hbm, ⟨1, _⟩ => ⟨S4x10000x128, .f32⟩
  | .hbm, ⟨2, _⟩ => ⟨S2x160000, .i32⟩
  | .hbm, ⟨3, _⟩ => ⟨S128x192, .f32⟩
  | .hbm, ⟨4, _⟩ => ⟨S128, .f32⟩
  | .hbm, ⟨5, _⟩ => ⟨S384x64, .f32⟩
  | .hbm, ⟨6, _⟩ => ⟨S384x128, .f32⟩
  | .hbm, ⟨7, _⟩ => ⟨S384, .f32⟩
  | .hbm, ⟨8, _⟩ => ⟨S384, .f32⟩
  | .hbm, ⟨9, _⟩ => ⟨S10000, .i32⟩
  | .hbm, ⟨10, _⟩ => ⟨S1x160000, .i32⟩
  | .hbm, ⟨11, _⟩ => ⟨S160000, .i32⟩
  | .hbm, ⟨12, _⟩ => ⟨S170000, .i32⟩
  | .hbm, ⟨13, _⟩ => ⟨S1x160000, .i32⟩
  | .hbm, ⟨14, _⟩ => ⟨S160000, .i32⟩
  | .hbm, ⟨15, _⟩ => ⟨S170000, .i32⟩
  | .hbm, ⟨16, _⟩ => ⟨S4x10000x192, .f32⟩
  | .hbm, ⟨17, _⟩ => ⟨S_, .i32⟩
  | .hbm, ⟨18, _⟩ => ⟨S170000, .i32⟩
  | .hbm, ⟨19, _⟩ => ⟨S170000, .i1⟩
  | .hbm, ⟨20, _⟩ => ⟨S_, .i32⟩
  | .hbm, ⟨21, _⟩ => ⟨S170000, .i32⟩
  | .hbm, ⟨22, _⟩ => ⟨S170000, .i32⟩
  | .hbm, ⟨23, _⟩ => ⟨S170000, .i32⟩
  | .hbm, ⟨24, _⟩ => ⟨S170000x1, .i32⟩
  | .hbm, ⟨25, _⟩ => ⟨S4x170000x192, .f32⟩
  | .hbm, ⟨26, _⟩ => ⟨S_, .f32⟩
  | .hbm, ⟨27, _⟩ => ⟨S4x10000x192, .f32⟩
  | .hbm, ⟨28, _⟩ => ⟨S_, .i32⟩
  | .hbm, ⟨29, _⟩ => ⟨S170000, .i32⟩
  | .hbm, ⟨30, _⟩ => ⟨S170000, .i1⟩
  | .hbm, ⟨31, _⟩ => ⟨S_, .i32⟩
  | .hbm, ⟨32, _⟩ => ⟨S170000, .i32⟩
  | .hbm, ⟨33, _⟩ => ⟨S170000, .i32⟩
  | .hbm, ⟨34, _⟩ => ⟨S170000, .i32⟩
  | .hbm, ⟨35, _⟩ => ⟨S170000x1, .i32⟩
  | .hbm, ⟨36, _⟩ => ⟨S4x10000x192, .f32⟩
  | .hbm, ⟨37, _⟩ => ⟨S_, .i32⟩
  | .hbm, ⟨38, _⟩ => ⟨S170000, .i32⟩
  | .hbm, ⟨39, _⟩ => ⟨S170000, .i1⟩
  | .hbm, ⟨40, _⟩ => ⟨S_, .i32⟩
  | .hbm, ⟨41, _⟩ => ⟨S170000, .i32⟩
  | .hbm, ⟨42, _⟩ => ⟨S170000, .i32⟩
  | .hbm, ⟨43, _⟩ => ⟨S170000, .i32⟩
  | .hbm, ⟨44, _⟩ => ⟨S170000x1, .i32⟩
  | .hbm, ⟨45, _⟩ => ⟨S4x170000x192, .f32⟩
  | .hbm, ⟨46, _⟩ => ⟨S_, .f32⟩
  | .hbm, ⟨47, _⟩ => ⟨S4x10000x192, .f32⟩
  | .hbm, ⟨48, _⟩ => ⟨S_, .i32⟩
  | .hbm, ⟨49, _⟩ => ⟨S170000, .i32⟩
  | .hbm, ⟨50, _⟩ => ⟨S170000, .i1⟩
  | .hbm, ⟨51, _⟩ => ⟨S_, .i32⟩
  | .hbm, ⟨52, _⟩ => ⟨S170000, .i32⟩
  | .hbm, ⟨53, _⟩ => ⟨S170000, .i32⟩
  | .hbm, ⟨54, _⟩ => ⟨S170000, .i32⟩
  | .hbm, ⟨55, _⟩ => ⟨S170000x1, .i32⟩
  | .hbm, ⟨56, _⟩ => ⟨S4x10000x192, .f32⟩
  | .hbm, ⟨57, _⟩ => ⟨S4x10000x128, .f32⟩
  | .hbm, ⟨58, _⟩ => ⟨S1x1x128, .f32⟩
  | .hbm, ⟨59, _⟩ => ⟨S4x10000x128, .f32⟩
  | .hbm, ⟨60, _⟩ => ⟨S4x10000x128, .f32⟩
  | .hbm, ⟨61, _⟩ => ⟨S4x10000x384, .f32⟩
  | .hbm, ⟨62, _⟩ => ⟨S1x1x384, .f32⟩
  | .hbm, ⟨63, _⟩ => ⟨S4x10000x384, .f32⟩
  | .hbm, ⟨64, _⟩ => ⟨S4x10000x384, .f32⟩
  | .hbm, ⟨65, _⟩ => ⟨S4x10000x384, .f32⟩
  | .hbm, ⟨66, _⟩ => ⟨S1x1x384, .f32⟩
  | .hbm, ⟨67, _⟩ => ⟨S4x10000x384, .f32⟩
  | .hbm, ⟨68, _⟩ => ⟨S4x10000x384, .f32⟩
  | .hbm, ⟨69, _⟩ => ⟨S4x10000x128, .f32⟩
  | .hbm, ⟨70, _⟩ => ⟨S4x10000x128, .f32⟩
  | .hbm, ⟨71, _⟩ => ⟨S4x10000x128, .f32⟩
  | .hbm, ⟨72, _⟩ => ⟨S4x10000x128, .f32⟩
  | .hbm, ⟨73, _⟩ => ⟨S4x10000x128, .f32⟩
  | .hbm, ⟨74, _⟩ => ⟨S4x10000x128, .f32⟩
  | .hbm, ⟨75, _⟩ => ⟨S4x10000x128, .f32⟩
  | .hbm, ⟨76, _⟩ => ⟨S4x10000x128, .f32⟩
  | .hbm, ⟨77, _⟩ => ⟨S4x10000x128, .f32⟩
  | .hbm, ⟨78, _⟩ => ⟨S_, .f32⟩
  | .hbm, ⟨79, _⟩ => ⟨S4x10000x128, .f32⟩
  | .hbm, ⟨80, _⟩ => ⟨S4x10000x128, .f32⟩
  | .hbm, ⟨81, _⟩ => ⟨S_, .f32⟩
  | .hbm, ⟨82, _⟩ => ⟨S4x10000x128, .f32⟩
  | .hbm, ⟨83, _⟩ => ⟨S4x10000x128, .f32⟩
  | .hbm, ⟨84, _⟩ => ⟨S4x10000x128, .f32⟩
  | .hbm, ⟨85, _⟩ => ⟨S4x10000x128, .f32⟩
  | .hbm, ⟨86, _⟩ => ⟨S4x10000x128, .f32⟩
  | .hbm, ⟨87, _⟩ => ⟨S_, .f32⟩
  | .hbm, ⟨88, _⟩ => ⟨S4x10000x128, .f32⟩
  | .hbm, ⟨89, _⟩ => ⟨S4x10000x128, .f32⟩
  | .hbm, ⟨90, _⟩ => ⟨S_, .f32⟩
  | .hbm, ⟨91, _⟩ => ⟨S4x10000x128, .f32⟩
  | .hbm, ⟨92, _⟩ => ⟨S4x10000x128, .f32⟩
  | .hbm, ⟨93, _⟩ => ⟨S4x10000x128, .f32⟩
  | .hbm, ⟨94, _⟩ => ⟨S4x10000x128, .f32⟩
  | .hbm, ⟨95, _⟩ => ⟨S4x10000x128, .f32⟩
  | .hbm, ⟨96, _⟩ => ⟨S_, .f32⟩
  | .hbm, ⟨97, _⟩ => ⟨S4x10000x128, .f32⟩
  | .hbm, ⟨98, _⟩ => ⟨S4x10000x128, .f32⟩
  | .hbm, ⟨99, _⟩ => ⟨S4x10000x128, .f32⟩
  | .hbm, ⟨100, _⟩ => ⟨S4x10000x128, .f32⟩
  | .hbm, ⟨101, _⟩ => ⟨S4x10000x128, .f32⟩
  | _, _ => ⟨S4x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_cst_11 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  concatenates_S4x10000x64_S4x10000x128_S4x10000x192_d2 : Shape.Concatenates [S4x10000x64, S4x10000x128] S4x10000x192 2
  bcast_S_S170000 : S_.BroadcastsInDim S170000 (![] : Fin 0 → Fin S170000.rank)
  bcast_S170000_S170000x1_0 : S170000.BroadcastsInDim S170000x1 (![0] : Fin 1 → Fin S170000x1.rank)
  bcast_S_S4x10000x192 : S_.BroadcastsInDim S4x10000x192 (![] : Fin 0 → Fin S4x10000x192.rank)
  bcast_S128_S1x1x128_2 : S128.BroadcastsInDim S1x1x128 (![2] : Fin 1 → Fin S1x1x128.rank)
  bcast_S1x1x128_S4x10000x128_0_1_2 : S1x1x128.BroadcastsInDim S4x10000x128 (![0, 1, 2] : Fin 3 → Fin S4x10000x128.rank)
  bcast_S384_S1x1x384_2 : S384.BroadcastsInDim S1x1x384 (![2] : Fin 1 → Fin S1x1x384.rank)
  bcast_S1x1x384_S4x10000x384_0_1_2 : S1x1x384.BroadcastsInDim S4x10000x384 (![0, 1, 2] : Fin 3 → Fin S4x10000x384.rank)
  slices_S4x10000x384_S4x10000x128_0_0_0 : S4x10000x384.Slices ![0, 0, 0] S4x10000x128
  slices_S4x10000x384_S4x10000x128_0_0_128 : S4x10000x384.Slices ![0, 0, 128] S4x10000x128
  slices_S4x10000x384_S4x10000x128_0_0_256 : S4x10000x384.Slices ![0, 0, 256] S4x10000x128
  bcast_S_S4x10000x128 : S_.BroadcastsInDim S4x10000x128 (![] : Fin 0 → Fin S4x10000x128.rank)
  gather_S4x10000x192_S170000x1_S4x170000x192_02_1_n_n_1_1_41192_wf : GatherDims.WF S4x10000x192 S170000x1 S4x170000x192 [0, 2] [1] [] [1] [] 1 ![4, 1, 192]
  scatter_S4x10000x192_S170000x1_S4x170000x192_02_1_1_1_wf : ScatterDims.WF S4x10000x192 S170000x1 S4x170000x192 [0, 2] [1] [1] 1
  dot_S4x10000x192_S128x192_S4x10000x128_2_1_01_0_n_n_wf : DotDims.WF S4x10000x192 S128x192 S4x10000x128 [2] [1] [0, 1] [0] [] []
  dot_S4x10000x64_S384x64_S4x10000x384_2_1_01_0_n_n_wf : DotDims.WF S4x10000x64 S384x64 S4x10000x384 [2] [1] [0, 1] [0] [] []
  dot_S4x10000x128_S384x128_S4x10000x384_2_1_01_0_n_n_wf : DotDims.WF S4x10000x128 S384x128 S4x10000x384 [2] [1] [0, 1] [0] [] []

variable [Facts₀]

def gather_S4x10000x192_S170000x1_S4x170000x192_02_1_n_n_1_1_41192 : GatherDims S4x10000x192 S170000x1 S4x170000x192 where
  offsetDims := [0, 2]
  collapsedSliceDims := [1]
  operandBatchingDims := []
  startIndicesBatchingDims := []
  startIndexMap := [1]
  indexVectorDim := 1
  sliceSizes := ![4, 1, 192]
  wf := gather_S4x10000x192_S170000x1_S4x170000x192_02_1_n_n_1_1_41192_wf
def scatter_S4x10000x192_S170000x1_S4x170000x192_02_1_1_1 : ScatterDims S4x10000x192 S170000x1 S4x170000x192 where
  updateWindowDims := [0, 2]
  insertedWindowDims := [1]
  scatterDimsToOperandDims := [1]
  indexVectorDim := 1
  wf := scatter_S4x10000x192_S170000x1_S4x170000x192_02_1_1_1_wf
def dot_S4x10000x192_S128x192_S4x10000x128_2_1_01_0_n_n : DotDims S4x10000x192 S128x192 S4x10000x128 where
  lhsContracting := [2]
  rhsContracting := [1]
  lhsNonContracting := [0, 1]
  rhsNonContracting := [0]
  lhsBatch := []
  rhsBatch := []
  wf := dot_S4x10000x192_S128x192_S4x10000x128_2_1_01_0_n_n_wf
def dot_S4x10000x64_S384x64_S4x10000x384_2_1_01_0_n_n : DotDims S4x10000x64 S384x64 S4x10000x384 where
  lhsContracting := [2]
  rhsContracting := [1]
  lhsNonContracting := [0, 1]
  rhsNonContracting := [0]
  lhsBatch := []
  rhsBatch := []
  wf := dot_S4x10000x64_S384x64_S4x10000x384_2_1_01_0_n_n_wf
def dot_S4x10000x128_S384x128_S4x10000x384_2_1_01_0_n_n : DotDims S4x10000x128 S384x128 S4x10000x384 where
  lhsContracting := [2]
  rhsContracting := [1]
  lhsNonContracting := [0, 1]
  rhsNonContracting := [0]
  lhsBatch := []
  rhsBatch := []
  wf := dot_S4x10000x128_S384x128_S4x10000x384_2_1_01_0_n_n_wf

class Facts : Prop extends Facts₀ where

variable [Facts]
-- ==== Proof.KI.Diffuse0Runs.lean ====
import proofs.«416083_j74431783240178_1_alg».proof.Proof.Gen.KernelIdeal.Launch
import proofs.«416083_j74431783240178_1_alg».proof.Proof.Gen.KernelIdeal.Skeleton
import proofs.«416083_j74431783240178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Blocks

abbrev isFirst0 (i : grid0.Coords) : Prop :=
  (Scalar.cmpi .ne (Scalar.extui (Scalar.cmpi .eq (BitVec.ofNat 32 (i 1).val) 0#32)) 0#32) = 1#1
theorem isFirst0_iff : ∀ t : Fin cfg0.N, isFirst0 (grid0.coords t) ↔ t.val % 10 = 0 :=
  (by decide +kernel : ∀ t : Fin grid0.N, isFirst0 (grid0.coords t) ↔ t.val % 10 = 0)

abbrev isLast0 (i : grid0.Coords) : Prop := k0_cond2 i = 1#1
theorem isLast0_iff : ∀ t : Fin cfg0.N, isLast0 (grid0.coords t) ↔ t.val % 10 = 9 :=
  (by decide +kernel : ∀ t : Fin grid0.N, isLast0 (grid0.coords t) ↔ t.val % 10 = 9)

theorem liveAdj0 : ∀ t : Fin cfg0.N, cfg0.idle 0 (grid0.coords t) = false := by decide +kernel
theorem liveFeat0 : ∀ t : Fin cfg0.N, cfg0.idle 1 (grid0.coords t) = false := by decide +kernel
theorem idleOut0 : ∀ t : Fin cfg0.N, ¬isLast0 (grid0.coords t) → cfg0.idle 2 (grid0.coords t) = true := by decide +kernel
theorem keptOut0 : ∀ t : Fin cfg0.N, ¬isLast0 (grid0.coords t) → (cfg0.win 2).flush t = false := by decide +kernel
theorem liveOut0 : ∀ t : Fin cfg0.N, isLast0 (grid0.coords t) → cfg0.idle 2 (grid0.coords t) = false := by decide +kernel

abbrev adjM0 (t : Fin cfg0.N) : Memref sig .tc .vmem S1024x1024 .bf16 := win0_0.stage (cfg0.slots t 0)
abbrev adjW0 (t : Fin cfg0.N) : (adjM0 t).IsWhole := hstage0_0 ((cfg0.slots t 0).cast nbuf0_0)
abbrev featM0 (t : Fin cfg0.N) : Memref sig .tc .vmem S1024x768 .f32 := win0_1.stage (cfg0.slots t 1)
abbrev featW0 (t : Fin cfg0.N) : (featM0 t).IsWhole := hstage0_1 ((cfg0.slots t 1).cast nbuf0_1)
abbrev outM0 (t : Fin cfg0.N) : Memref sig .tc .vmem S1024x768 .f32 := win0_2.stage (cfg0.slots t 2)
abbrev outW0 (t : Fin cfg0.N) : (outM0 t).IsWhole := hstage0_2 ((cfg0.slots t 2).cast nbuf0_2)
abbrev accM0 : Memref sig .tc .vmem S1024x768 .f32 := Memref.whole cc0_scratch0

def others0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) accM0 fullShare d) ∗ others0 (F := F) c) ∗ (∃ r, prngReg c r)) := by
  unfold Pipeline.ΦA others0
  rw [Pipeline.scopedRest_split_of_list spec0 c [cc0_scratch0] (by decide) (by decide)]
  simp only [accM0, owns_whole, bigSepL_singleton]; try rfl

end Cert.KernelIdeal.Hand

end
-- ==== Proof.KI.DiffuseBody.lean ====
import proofs.«416083_j74431783240178_1_alg».proof.Proof.KI.Diffuse0Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords) (arg2 : Memref sig .tc .vmem S1024x1024 .bf16) (harg2 : arg2.IsWhole)
  (arg3 : Memref sig .tc .vmem S1024x768 .f32) (harg3 : arg3.IsWhole) (arg4 : Memref sig .tc .vmem S1024x768 .f32) (harg4 : arg4.IsWhole)
  (arg5 : Memref sig .tc .vmem S1024x768 .f32) (harg5 : arg5.IsWhole)

set_option maxHeartbeats 1000000 in
noncomputable def runFirst0 (hc0 : isFirst0 i) (hc1 : ¬isLast0 i)
    (x0 : Vec F S1024x1024 .bf16) (x1 : Vec F S1024x768 .f32) :
    { LS : List (View.Piece (Elt F) S1024x768 .f32) //
      ∀ (xo : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__diffuse_kernel i arg2 harg2 arg3 harg3 arg4 harg4 arg5 harg5) K } := by
  refine ⟨?_, fun xo E K => ?run⟩
  case run =>
    simp only [cc0__diffuse_kernel_eq_skeleton]; unfold cc0__diffuse_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
noncomputable def runMid0 (hc0 : ¬isFirst0 i) (hc1 : ¬isLast0 i)
    (x0 : Vec F S1024x1024 .bf16) (x1 : Vec F S1024x768 .f32) (xs : Vec F S1024x768 .f32) :
    { LS : List (View.Piece (Elt F) S1024x768 .f32) //
      ∀ (xo : Vec F S1024x768 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__diffuse_kernel i arg2 harg2 arg3 harg3 arg4 harg4 arg5 harg5) K } := by
  refine ⟨?_, fun xo E K => ?run⟩
  case run =>
    simp only [cc0__diffuse_kernel_eq_skeleton]; unfold cc0__diffuse_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
noncomputable def runLast0 (hc0 : ¬isFirst0 i) (hc1 : isLast0 i)
    (x0 : Vec F S1024x1024 .bf16) (x1 : Vec F S1024x768 .f32) (xs : Vec F S1024x768 .f32) :
    Σ' (LO : List (View.Piece (Elt F) S1024x768 .f32)), { LS : List (View.Piece (Elt F) S1024x768 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__diffuse_kernel i arg2 harg2 arg3 harg3 arg4 harg4 arg5 harg5) K } := by
  refine ⟨?_, ?_, fun E K => ?run⟩
  case run =>
    simp only [cc0__diffuse_kernel_eq_skeleton]; unfold cc0__diffuse_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

theorem zeroOff : (![0, 0] : Fin 2 → Nat) = fun _ => 0 := funext fun a => by fin_cases a <;> rfl

variable (v : View sig .tc .vmem S1024x768 .f32) (f : v.ty.Contents (Elt F))

-- Over any prior contents, a whole block read back after a step's writes is the product of the two blocks added to what the step started from.
theorem firstVal (hc0 : isFirst0 i) (hc1 : ¬isLast0 i) (x0 : Vec F S1024x1024 .bf16) (x1 : Vec F S1024x768 .f32) :
    v.read (Elt F) (v.writes (Elt F) f (runFirst0 c i arg2 harg2 arg3 harg3 arg4 harg4 arg5 harg5 hc0 hc1 x0 x1).1) = k0_pay2 x0 x1 k0_pay1 := by
  rw [View.read_writes_eq_canon _ _ _ (View.cover_of_tiledL (runFirst0 c i arg2 harg2 arg3 harg3 arg4 harg4 arg5 harg5 hc0 hc1 x0 x1).1 S1024x768.size (by sl_kernel_rfl))]
  unfold runFirst0
  dsimp only
  sl_unfold_words
  rw [View.canon_cons_unit_zero (S := S1024x768) zeroOff]
  simp only [View.readAt_eq_ld, harg2.read_unread, harg3.read_unread, View.ld_unit_zero (S := S1024x1024) zeroOff,
    View.ld_unit_zero (S := S1024x768) zeroOff, View.readCov_unit_zero (S := S1024x768) _ zeroOff]

theorem midVal (hc0 : ¬isFirst0 i) (hc1 : ¬isLast0 i) (x0 : Vec F S1024x1024 .bf16) (x1 xs : Vec F S1024x768 .f32) :
    v.read (Elt F) (v.writes (Elt F) f (runMid0 c i arg2 harg2 arg3 harg3 arg4 harg4 arg5 harg5 hc0 hc1 x0 x1 xs).1) = k0_pay2 x0 x1 xs := by
  rw [View.read_writes_eq_canon _ _ _ (View.cover_of_tiledL (runMid0 c i arg2 harg2 arg3 harg3 arg4 harg4 arg5 harg5 hc0 hc1 x0 x1 xs).1 S1024x768.size (by sl_kernel_rfl))]
  unfold runMid0
  dsimp only
  sl_unfold_words
  rw [View.canon_unit_zero zeroOff]
  simp only [View.readAt_eq_ld, harg2.read_unread, harg3.read_unread, harg5.read_unread, View.ld_unit_zero (S := S1024x1024) zeroOff,
    View.ld_unit_zero (S := S1024x768) zeroOff, View.readCov_unit_zero (S := S1024x768) _ zeroOff]

theorem lastAccVal (hc0 : ¬isFirst0 i) (hc1 : isLast0 i) (x0 : Vec F S1024x1024 .bf16) (x1 xs : Vec F S1024x768 .f32) :
    v.read (Elt F) (v.writes (Elt F) f (runLast0 c i arg2 harg2 arg3 harg3 arg4 harg4 arg5 harg5 hc0 hc1 x0 x1 xs).2.1) = k0_pay2 x0 x1 xs := by
  rw [View.read_writes_eq_canon _ _ _ (View.cover_of_tiledL (runLast0 c i arg2 harg2 arg3 harg3 arg4 harg4 arg5 harg5 hc0 hc1 x0 x1 xs).2.1 S1024x768.size (by sl_kernel_rfl))]
  unfold runLast0
  dsimp only
  sl_unfold_words
  rw [View.canon_unit_zero zeroOff]
  simp only [View.readAt_eq_ld, harg2.read_unread, harg3.read_unread, harg5.read_unread, View.ld_unit_zero (S := S1024x1024) zeroOff,
    View.ld_unit_zero (S := S1024x768) zeroOff, View.readCov_unit_zero (S := S1024x768) _ zeroOff]

theorem lastOutVal (hc0 : ¬isFirst0 i) (hc1 : isLast0 i) (x0 : Vec F S1024x1024 .bf16) (x1 xs : Vec F S1024x768 .f32) :
    v.read (Elt F) (v.writes (Elt F) f (runLast0 c i arg2 harg2 arg3 harg3 arg4 harg4 arg5 harg5 hc0 hc1 x0 x1 xs).1) = k0_pay2 x0 x1 xs := by
  rw [View.read_writes_eq_canon _ _ _ (View.cover_of_tiledL (runLast0 c i arg2 harg2 arg3 harg3 arg4 harg4 arg5 harg5 hc0 hc1 x0 x1 xs).1 S1024x768.size (by sl_kernel_rfl))]
  unfold runLast0
  dsimp only
  sl_unfold_words
  rw [View.canon_unit_zero zeroOff]
  simp only [View.readAt_eq_ld, harg2.read_unread, harg3.read_unread, harg5.read_unread, View.ld_unit_zero (S := S1024x1024) zeroOff,
    View.ld_unit_zero (S := S1024x768) zeroOff, View.readCov_unit_zero (S := S1024x768) _ zeroOff]

end Body

-- The accumulator after point `n` of a row-major sweep, ten steps a row: each row starts from zero and adds one product a step.
def accOf {N : ℕ} (a : Fin N → Vec F S1024x1024 .bf16) (x : Fin N → Vec F S1024x768 .f32) : (n : ℕ) → n < N → Vec F S1024x768 .f32
  | 0, h => k0_pay2 (a ⟨0, h⟩) (x ⟨0, h⟩) k0_pay1
  | n + 1, h => k0_pay2 (a ⟨n + 1, h⟩) (x ⟨n + 1, h⟩) (if (n + 1) % 10 = 0 then k0_pay1 else accOf a x n (Nat.lt_of_succ_lt h))

theorem accOf_first {N : ℕ} (a : Fin N → Vec F S1024x1024 .bf16) (x : Fin N → Vec F S1024x768 .f32) (t : Fin N) (h0 : t.val % 10 = 0) :
    accOf a x t.val t.isLt = k0_pay2 (a t) (x t) k0_pay1 := by
  obtain ⟨n, hn⟩ := t
  cases n with
  | zero => rfl
  | succ n => exact congrArg (k0_pay2 _ _) (if_pos h0)

theorem accOf_next {N : ℕ} (a : Fin N → Vec F S1024x1024 .bf16) (x : Fin N → Vec F S1024x768 .f32) (t : Fin N) (h0 : ¬t.val % 10 = 0) :
    accOf a x t.val t.isLt = k0_pay2 (a t) (x t) (accOf a x (t.val - 1) (Nat.lt_of_le_of_lt (Nat.sub_le _ _) t.isLt)) := by
  obtain ⟨n, hn⟩ := t
  cases n with
  | zero => exact absurd (Nat.zero_mod _) h0
  | succ n => exact congrArg (k0_pay2 _ _) (if_neg h0)

theorem accOf_congr {N : ℕ} (a : Fin N → Vec F S1024x1024 .bf16) (x : Fin N → Vec F S1024x768 .f32) {n n' : ℕ} (h : n = n') (hn : n < N) (hn' : n' < N) :
    accOf a x n hn = accOf a x n' hn' := by
  subst h; rfl

end Cert.KernelIdeal.Hand

end
-- ==== Proof.KI.Diffuse0.lean ====
import proofs.«416083_j74431783240178_1_alg».proof.Proof.KI.DiffuseBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc0 (c : Dev nD) (n : ℕ) (hn : n < cfg0.N) : Vec F S1024x768 .f32 :=
  accOf (fun t => blk0 V c 0 t) (fun t => blk0 V c 1 t) n hn

theorem acc0_first (c : Dev nD) (t : Fin cfg0.N) (h0 : t.val % 10 = 0) :
    acc0 V c t.val t.isLt = k0_pay2 (blk0 V c 0 t) (blk0 V c 1 t) k0_pay1 :=
  accOf_first _ _ t h0

theorem acc0_next (c : Dev nD) (t : Fin cfg0.N) (h0 : ¬t.val % 10 = 0) :
    acc0 V c t.val t.isLt = k0_pay2 (blk0 V c 0 t) (blk0 V c 1 t) (acc0 V c (t.val - 1) (Nat.lt_of_le_of_lt (Nat.sub_le _ _) t.isLt)) :=
  accOf_next _ _ t h0

def PhiS0 (V : (c : Dev nD) → (b : Ref sig .tc) → Buf (Elt F) ((c : Thread nD τ).loc b)) (c : Dev nD) : (n : ℕ) → n ≤ cfg0.N → sProp 𝕄
  | 0, _ => Pipeline.ΦA spec0 c
  | n + 1, hn => iprop(iprop(owns (c : Thread nD τ) accM0 fullShare (acc0 V c n hn) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare (acc0 V c n hn) ∗ others0 (F := F) c) ∗ (∃ r, prngReg c r)) := rfl

theorem PhiS0_pos (c : Dev nD) (n : ℕ) (h : n ≤ cfg0.N) (hz : n ≠ 0) :
    PhiS0 V c n h = iprop(iprop(owns (c : Thread nD τ) accM0 fullShare (acc0 V c (n - 1) (by omega)) ∗ others0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem beforeAdj0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]; try rfl) t d).trans
    (by unfold Dat.fetched Dat.blockOf blk0; rw [A_eq0]; try rfl)
theorem beforeFeat0 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]; try rfl) t d).trans
    (by unfold Dat.fetched Dat.blockOf blk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (adjM0 t) fullShare ((dat0 V c).before 0 t d))
    ∗ (∃ d, owns (c : Thread nD τ) (featM0 t) fullShare ((dat0 V c).before 1 t d))
    ∗ (∃ d, owns (c : Thread nD τ) (outM0 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [beforeAdj0, beforeFeat0]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  by_cases h0 : t.val % 10 = 0
  · rw [show (dat0 V c).leavesExact 0 t = owns (c : Thread nD τ) (adjM0 t) fullShare ((dat0 V c).after 0 t) from by
      unfold Dat.leavesExact; rw [liveAdj0 t], after0_0]
    rw [show (dat0 V c).leavesExact 1 t = owns (c : Thread nD τ) (featM0 t) fullShare ((dat0 V c).after 1 t) from by
      unfold Dat.leavesExact; rw [liveFeat0 t], after0_1]
    rw [Dat.leavesExact_idle (dat0 V c) 2 t (idleOut0 t (fun h => (fun h9 : t.val % 10 = 9 => by omega) ((isLast0_iff t).mp h))) (keptOut0 t (fun h => (fun h9 : t.val % 10 = 9 => by omega) ((isLast0_iff t).mp h)))]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply ((runFirst0 c (grid0.coords t) (adjM0 t) (adjW0 t) (featM0 t) (featW0 t) (outM0 t) (outW0 t) accM0 (Memref.isWhole_whole _) ((isFirst0_iff t).mpr h0) (fun h => (fun h9 : t.val % 10 = 9 => by omega) ((isLast0_iff t).mp h)) (blk0 V c 0 t) (blk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact firstVal ..
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply ((runFirst0 c (grid0.coords t) (adjM0 t) (adjW0 t) (featM0 t) (featW0 t) (outM0 t) (outW0 t) accM0 (Memref.isWhole_whole _) ((isFirst0_iff t).mpr h0) (fun h => (fun h9 : t.val % 10 = 9 => by omega) ((isLast0_iff t).mp h)) (blk0 V c 0 t) (blk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact firstVal ..
          iexact HR
        iexact Hg
      isplitl [Ho]; · iexact Ho
      isplitl [H0]; · iexact H0
      isplitl [H1]; · iexact H1
      iexists _; iexact H2
  · have hz : t.val ≠ 0 := fun e => h0 (by rw [e])
    by_cases h9 : t.val % 10 = 9
    · rw [show (dat0 V c).leavesExact 0 t = owns (c : Thread nD τ) (adjM0 t) fullShare ((dat0 V c).after 0 t) from by
        unfold Dat.leavesExact; rw [liveAdj0 t], after0_0]
      rw [show (dat0 V c).leavesExact 1 t = owns (c : Thread nD τ) (featM0 t) fullShare ((dat0 V c).after 1 t) from by
        unfold Dat.leavesExact; rw [liveFeat0 t], after0_1]
      rw [show (dat0 V c).leavesExact 2 t = owns (c : Thread nD τ) (outM0 t) fullShare ((dat0 V c).after 2 t) from by
        unfold Dat.leavesExact; rw [liveOut0 t ((isLast0_iff t).mpr h9)], after0_2]
      rw [acc0_next V c t h0]
      rw [PhiS0_castSucc V c t, PhiS0_pos V c _ _ hz]
      iintro ⟨⟨⟨HS, HR⟩, Hg⟩, Ho, ⟨%d0, H0⟩, ⟨%d1, H1⟩, ⟨%d2, H2⟩⟩
      iapply ((runLast0 c (grid0.coords t) (adjM0 t) (adjW0 t) (featM0 t) (featW0 t) (outM0 t) (outW0 t) accM0 (Memref.isWhole_whole _) (fun h => h0 ((isFirst0_iff t).mp h)) ((isLast0_iff t).mpr h9) (blk0 V c 0 t) (blk0 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS HR Hg]
      · isplitl [HS HR]
        · isplitl [HS]
          · unfold owns; iexists _; isplitr
            swap; · iexact HS
            ipureintro; exact lastAccVal ..
          iexact HR
        iexact Hg
      isplitl [Ho]; · iexact Ho
      isplitl [H0]; · iexact H0
      isplitl [H1]; · iexact H1
      unfold owns; iexists _; isplitr
      swap; · iexact H2
      ipureintro; exact lastOutVal ..
    · rw [show (dat0 V c).leavesExact 0 t = owns (c : Thread nD τ) (adjM0 t) fullShare ((dat0 V c).after 0 t) from by
        unfold Dat.leavesExact; rw [liveAdj0 t], after0_0]
      rw [show (dat0 V c).leavesExact 1 t = owns (c : Thread nD τ) (featM0 t) fullShare ((dat0 V c).after 1 t) from by
        unfold Dat.leavesExact; rw [liveFeat0 t], after0_1]
      rw [Dat.leavesExact_idle (dat0 V c) 2 t (idleOut0 t (fun h => h9 ((isLast0_iff t).mp h))) (keptOut0 t (fun h => h9 ((isLast0_iff t).mp h)))]
      rw [acc0_next V c t h0]
      rw [PhiS0_castSucc V c t, PhiS0_pos V c _ _ hz]
      iintro ⟨⟨⟨HS, HR⟩, Hg⟩, Ho, ⟨%d0, H0⟩, ⟨%d1, H1⟩, ⟨%d2, H2⟩⟩
      iapply ((runMid0 c (grid0.coords t) (adjM0 t) (adjW0 t) (featM0 t) (featW0 t) (outM0 t) (outW0 t) accM0 (Memref.isWhole_whole _) (fun h => h0 ((isFirst0_iff t).mp h)) (fun h => h9 ((isLast0_iff t).mp h)) (blk0 V c 0 t) (blk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact midVal ..
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem PhiS0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

theorem hout0 (c : Dev nD) : (dat0 V c).Φ (Fin.last cfg0.N) ⊢ Pipeline.ΦA spec0 c :=
  PhiS0_out V c _ (by rw [Fin.val_last]; have : cfg0.N = 100 := N_0; omega)

end Cert.KernelIdeal.Hand

end
-- ==== Proof.KI.Diffuse1Runs.lean ====
import proofs.«416083_j74431783240178_1_alg».proof.Proof.Gen.KernelIdeal.Launch
import proofs.«416083_j74431783240178_1_alg».proof.Proof.Gen.KernelIdeal.Skeleton
import proofs.«416083_j74431783240178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

abbrev isFirst1 (i : grid1.Coords) : Prop :=
  (Scalar.cmpi .ne (Scalar.extui (Scalar.cmpi .eq (BitVec.ofNat 32 (i 1).val) 0#32)) 0#32) = 1#1
theorem isFirst1_iff : ∀ t : Fin cfg1.N, isFirst1 (grid1.coords t) ↔ t.val % 10 = 0 :=
  (by decide +kernel : ∀ t : Fin grid1.N, isFirst1 (grid1.coords t) ↔ t.val % 10 = 0)

abbrev isLast1 (i : grid1.Coords) : Prop := k1_cond2 i = 1#1
theorem isLast1_iff : ∀ t : Fin cfg1.N, isLast1 (grid1.coords t) ↔ t.val % 10 = 9 :=
  (by decide +kernel : ∀ t : Fin grid1.N, isLast1 (grid1.coords t) ↔ t.val % 10 = 9)

theorem liveAdj1 : ∀ t : Fin cfg1.N, cfg1.idle 0 (grid1.coords t) = false := by decide +kernel
theorem liveFeat1 : ∀ t : Fin cfg1.N, cfg1.idle 1 (grid1.coords t) = false := by decide +kernel
theorem idleOut1 : ∀ t : Fin cfg1.N, ¬isLast1 (grid1.coords t) → cfg1.idle 2 (grid1.coords t) = true := by decide +kernel
theorem keptOut1 : ∀ t : Fin cfg1.N, ¬isLast1 (grid1.coords t) → (cfg1.win 2).flush t = false := by decide +kernel
theorem liveOut1 : ∀ t : Fin cfg1.N, isLast1 (grid1.coords t) → cfg1.idle 2 (grid1.coords t) = false := by decide +kernel

abbrev adjM1 (t : Fin cfg1.N) : Memref sig .tc .vmem S1024x1024 .bf16 := win1_0.stage (cfg1.slots t 0)
abbrev adjW1 (t : Fin cfg1.N) : (adjM1 t).IsWhole := hstage1_0 ((cfg1.slots t 0).cast nbuf1_0)
abbrev featM1 (t : Fin cfg1.N) : Memref sig .tc .vmem S1024x768 .f32 := win1_1.stage (cfg1.slots t 1)
abbrev featW1 (t : Fin cfg1.N) : (featM1 t).IsWhole := hstage1_1 ((cfg1.slots t 1).cast nbuf1_1)
abbrev outM1 (t : Fin cfg1.N) : Memref sig .tc .vmem S1024x768 .f32 := win1_2.stage (cfg1.slots t 2)
abbrev outW1 (t : Fin cfg1.N) : (outM1 t).IsWhole := hstage1_2 ((cfg1.slots t 2).cast nbuf1_2)
abbrev accM1 : Memref sig .tc .vmem S1024x768 .f32 := Memref.whole cc1_scratch0

def others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) accM1 fullShare d) ∗ others1 (F := F) c) ∗ (∃ r, prngReg c r)) := by
  unfold Pipeline.ΦA others1
  rw [Pipeline.scopedRest_split_of_list spec1 c [cc1_scratch0] (by decide) (by decide)]
  simp only [accM1, owns_whole, bigSepL_singleton]; try rfl

end Cert.KernelIdeal.Hand

end
-- ==== Proof.KI.Diffuse1.lean ====
import proofs.«416083_j74431783240178_1_alg».proof.Proof.KI.DiffuseBody
import proofs.«416083_j74431783240178_1_alg».proof.Proof.KI.Diffuse1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc1 (c : Dev nD) (n : ℕ) (hn : n < cfg1.N) : Vec F S1024x768 .f32 :=
  accOf (fun t => blk1 V c 0 t) (fun t => blk1 V c 1 t) n hn

theorem acc1_first (c : Dev nD) (t : Fin cfg1.N) (h0 : t.val % 10 = 0) :
    acc1 V c t.val t.isLt = k0_pay2 (blk1 V c 0 t) (blk1 V c 1 t) k0_pay1 :=
  accOf_first _ _ t h0

theorem acc1_next (c : Dev nD) (t : Fin cfg1.N) (h0 : ¬t.val % 10 = 0) :
    acc1 V c t.val t.isLt = k0_pay2 (blk1 V c 0 t) (blk1 V c 1 t) (acc1 V c (t.val - 1) (Nat.lt_of_le_of_lt (Nat.sub_le _ _) t.isLt)) :=
  accOf_next _ _ t h0

def PhiS1 (V : (c : Dev nD) → (b : Ref sig .tc) → Buf (Elt F) ((c : Thread nD τ).loc b)) (c : Dev nD) : (n : ℕ) → n ≤ cfg1.N → sProp 𝕄
  | 0, _ => Pipeline.ΦA spec1 c
  | n + 1, hn => iprop(iprop(owns (c : Thread nD τ) accM1 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) accM1 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) accM1 fullShare (acc1 V c (n - 1) (by omega)) ∗ others1 (F := F) c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem beforeAdj1 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]; try rfl) t d).trans
    (by unfold Dat.fetched Dat.blockOf blk1; rw [A_eq1]; try rfl)
theorem beforeFeat1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]; try rfl) t d).trans
    (by unfold Dat.fetched Dat.blockOf blk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (adjM1 t) fullShare ((dat1 V c).before 0 t d))
    ∗ (∃ d, owns (c : Thread nD τ) (featM1 t) fullShare ((dat1 V c).before 1 t d))
    ∗ (∃ d, owns (c : Thread nD τ) (outM1 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [beforeAdj1, beforeFeat1]
  rw [show (dat1 V c).owesAt () t.succ = (dat1 V c).owesAt () t.castSucc from rfl]
  rw [show (dat1 V c).Φ t.succ = PhiS1 V c (t.val + 1) t.isLt from rfl, PhiS1_succ]
  have hN : t.val < 100 := lt_of_lt_of_eq t.isLt (show cfg1.N = 100 from N_1)
  by_cases h0 : t.val % 10 = 0
  · rw [show (dat1 V c).leavesExact 0 t = owns (c : Thread nD τ) (adjM1 t) fullShare ((dat1 V c).after 0 t) from by
      unfold Dat.leavesExact; rw [liveAdj1 t], after1_0]
    rw [show (dat1 V c).leavesExact 1 t = owns (c : Thread nD τ) (featM1 t) fullShare ((dat1 V c).after 1 t) from by
      unfold Dat.leavesExact; rw [liveFeat1 t], after1_1]
    rw [Dat.leavesExact_idle (dat1 V c) 2 t (idleOut1 t (fun h => (fun h9 : t.val % 10 = 9 => by omega) ((isLast1_iff t).mp h))) (keptOut1 t (fun h => (fun h9 : t.val % 10 = 9 => by omega) ((isLast1_iff t).mp h)))]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩⟩
      iapply ((runFirst0 c (grid1.coords t) (adjM1 t) (adjW1 t) (featM1 t) (featW1 t) (outM1 t) (outW1 t) accM1 (Memref.isWhole_whole _) ((isFirst1_iff t).mpr h0) (fun h => (fun h9 : t.val % 10 = 9 => by omega) ((isLast1_iff t).mp h)) (blk1 V c 0 t) (blk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact firstVal ..
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, HR⟩, Hg⟩, Ho, ⟨%d0, H0⟩, ⟨%d1, H1⟩, ⟨%d2, H2⟩⟩
      iapply ((runFirst0 c (grid1.coords t) (adjM1 t) (adjW1 t) (featM1 t) (featW1 t) (outM1 t) (outW1 t) accM1 (Memref.isWhole_whole _) ((isFirst1_iff t).mpr h0) (fun h => (fun h9 : t.val % 10 = 9 => by omega) ((isLast1_iff t).mp h)) (blk1 V c 0 t) (blk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact firstVal ..
          iexact HR
        iexact Hg
      isplitl [Ho]; · iexact Ho
      isplitl [H0]; · iexact H0
      isplitl [H1]; · iexact H1
      iexists _; iexact H2
  · have hz : t.val ≠ 0 := fun e => h0 (by rw [e])
    by_cases h9 : t.val % 10 = 9
    · rw [show (dat1 V c).leavesExact 0 t = owns (c : Thread nD τ) (adjM1 t) fullShare ((dat1 V c).after 0 t) from by
        unfold Dat.leavesExact; rw [liveAdj1 t], after1_0]
      rw [show (dat1 V c).leavesExact 1 t = owns (c : Thread nD τ) (featM1 t) fullShare ((dat1 V c).after 1 t) from by
        unfold Dat.leavesExact; rw [liveFeat1 t], after1_1]
      rw [show (dat1 V c).leavesExact 2 t = owns (c : Thread nD τ) (outM1 t) fullShare ((dat1 V c).after 2 t) from by
        unfold Dat.leavesExact; rw [liveOut1 t ((isLast1_iff t).mpr h9)], after1_2]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply ((runLast0 c (grid1.coords t) (adjM1 t) (adjW1 t) (featM1 t) (featW1 t) (outM1 t) (outW1 t) accM1 (Memref.isWhole_whole _) (fun h => h0 ((isFirst1_iff t).mp h)) ((isLast1_iff t).mpr h9) (blk1 V c 0 t) (blk1 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS HR Hg]
      · isplitl [HS HR]
        · isplitl [HS]
          · unfold owns; iexists _; isplitr
            swap; · iexact HS
            ipureintro; exact lastAccVal ..
          iexact HR
        iexact Hg
      isplitl [Ho]; · iexact Ho
      isplitl [H0]; · iexact H0
      isplitl [H1]; · iexact H1
      unfold owns; iexists _; isplitr
      swap; · iexact H2
      ipureintro; exact lastOutVal ..
    · rw [show (dat1 V c).leavesExact 0 t = owns (c : Thread nD τ) (adjM1 t) fullShare ((dat1 V c).after 0 t) from by
        unfold Dat.leavesExact; rw [liveAdj1 t], after1_0]
      rw [show (dat1 V c).leavesExact 1 t = owns (c : Thread nD τ) (featM1 t) fullShare ((dat1 V c).after 1 t) from by
        unfold Dat.leavesExact; rw [liveFeat1 t], after1_1]
      rw [Dat.leavesExact_idle (dat1 V c) 2 t (idleOut1 t (fun h => h9 ((isLast1_iff t).mp h))) (keptOut1 t (fun h => h9 ((isLast1_iff t).mp h)))]
      rw [acc1_next V c t h0]
      rw [PhiS1_castSucc V c t, PhiS1_pos V c _ _ hz]
      iintro ⟨⟨⟨HS, HR⟩, Hg⟩, Ho, ⟨%d0, H0⟩, ⟨%d1, H1⟩, ⟨%d2, H2⟩⟩
      iapply ((runMid0 c (grid1.coords t) (adjM1 t) (adjW1 t) (featM1 t) (featW1 t) (outM1 t) (outW1 t) accM1 (Memref.isWhole_whole _) (fun h => h0 ((isFirst1_iff t).mp h)) (fun h => h9 ((isLast1_iff t).mp h)) (blk1 V c 0 t) (blk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact midVal ..
          iexact HR
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem PhiS1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  PhiS1_out V c _ (by rw [Fin.val_last]; have : cfg1.N = 100 := N_1; omega)

end Cert.KernelIdeal.Hand

end
-- ==== Proof.KI.Gru.lean ====
import proofs.«416083_j74431783240178_1_alg».proof.Proof.KI.Diffuse1
import proofs.«416083_j74431783240178_1_alg».proof.Proof.Gen.KernelIdeal.Launch
import proofs.«416083_j74431783240178_1_alg».proof.Proof.Gen.KernelIdeal.Skeleton
import proofs.«416083_j74431783240178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA : Rect S1x2000x192 := Rect.unit (s := S1x2000x192) ![0, 0, 0] S1x2000x192.size inb_S1x2000x192_S1x2000x192_0_0_0
abbrev rX : Rect S1x2000x64 := Rect.unit (s := S1x2000x64) ![0, 0, 0] S1x2000x64.size inb_S1x2000x64_S1x2000x64_0_0_0
abbrev rLw : Rect S192x128 := Rect.unit (s := S192x128) ![0, 0] S192x128.size inb_S192x128_S192x128_0_0
abbrev rLb : Rect S128 := Rect.unit (s := S128) ![0] S128.size inb_S128_S128_0
abbrev rWi : Rect S64x384 := Rect.unit (s := S64x384) ![0, 0] S64x384.size inb_S64x384_S64x384_0_0
abbrev rWh : Rect S128x384 := Rect.unit (s := S128x384) ![0, 0] S128x384.size inb_S128x384_S128x384_0_0
abbrev rB : Rect S384 := Rect.unit (s := S384) ![0] S384.size inb_S384_S384_0
abbrev rO : Rect S1x2000x128 := Rect.unit (s := S1x2000x128) ![0, 0, 0] S1x2000x128.size inb_S1x2000x128_S1x2000x128_0_0_0

def gruPay (a : Vec F S1x2000x192 .f32) (x : Vec F S1x2000x64 .f32) (lw : Vec F S192x128 .f32) (lb : Vec F S128 .f32)
    (wi : Vec F S64x384 .f32) (wh : Vec F S128x384 .f32) (bi : Vec F S384 .f32) (bh : Vec F S384 .f32) : Vec F S1x2000x128 .f32 :=
  k2_pay1 (k2_pay2 a lw lb) (k2_pay5 x wi bi) (k2_pay6 a lw wh lb bh) (k2_pay7 a x lw wi wh lb bi bh) (k2_pay8 a x lw wi wh lb bi bh)

def gruOut (a : Vec F S1x2000x192 .f32) (x : Vec F S1x2000x64 .f32) (lw : Vec F S192x128 .f32) (lb : Vec F S128 .f32)
    (wi : Vec F S64x384 .f32) (wh : Vec F S128x384 .f32) (bi : Vec F S384 .f32) (bh : Vec F S384 .f32) : Vec F S1x2000x128 .f32 :=
  View.canon [⟨rO, gruPay (View.ld a rA) (View.ld x rX) (View.ld lw rLw) (View.ld lb rLb) (View.ld wi rWi) (View.ld wh rWh) (View.ld bi rB) (View.ld bh rB)⟩]

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => gruOut (blk2 V c 0 t) (blk2 V c 1 t) (blk2 V c 2 t) (blk2 V c 3 t) (blk2 V c 4 t) (blk2 V c 5 t) (blk2 V c 6 t) (blk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_8 (c : Dev nD) (t : Fin cfg2.N) : (dat2 V c).after 8 t
    = gruOut (blk2 V c 0 t) (blk2 V c 1 t) (blk2 V c 2 t) (blk2 V c 3 t) (blk2 V c 4 t) (blk2 V c 5 t) (blk2 V c 6 t) (blk2 V c 7 t) := by
  dsimp only [dat2]

theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = blk2 V c 4 t) (t : Fin cfg2.N) (d) : dat.before 4 t d = blk2 V c 4 t :=
  (dat.before_in_eq_fetched 4 rfl (fun _ => rfl) (fun _ _ _ => rfl) (fun t => by rw [hafter]; unfold Dat.blockOf blk2; rw [hA]; try rfl) t d).trans
    (by unfold Dat.fetched Dat.blockOf blk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = blk2 V c 5 t) (t : Fin cfg2.N) (d) : dat.before 5 t d = blk2 V c 5 t :=
  (dat.before_in_eq_fetched 5 rfl (fun _ => rfl) (fun _ _ _ => rfl) (fun t => by rw [hafter]; unfold Dat.blockOf blk2; rw [hA]; try rfl) t d).trans
    (by unfold Dat.fetched Dat.blockOf blk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = blk2 V c 6 t) (t : Fin cfg2.N) (d) : dat.before 6 t d = blk2 V c 6 t :=
  (dat.before_in_eq_fetched 6 rfl (fun _ => rfl) (fun _ _ _ => rfl) (fun t => by rw [hafter]; unfold Dat.blockOf blk2; rw [hA]; try rfl) t d).trans
    (by unfold Dat.fetched Dat.blockOf blk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = blk2 V c 7 t) (t : Fin cfg2.N) (d) : dat.before 7 t d = blk2 V c 7 t :=
  (dat.before_in_eq_fetched 7 rfl (fun _ => rfl) (fun _ _ _ => rfl) (fun t => by rw [hafter]; unfold Dat.blockOf blk2; rw [hA]; try rfl) t d).trans
    (by unfold Dat.fetched Dat.blockOf blk2; rw [hA]; try rfl)

theorem coverO (p : Vec F S1x2000x128 .f32) (y : S1x2000x128.Idx) :
    ∃ pc ∈ ([⟨rO, p⟩] : List (View.Piece (Elt F) S1x2000x128 .f32)), y ∈ pc.1.set :=
  View.cover_of_tiled [⟨rO, p⟩] S1x2000x128.size (by rfl) y

set_option maxHeartbeats 1000000 in
theorem sound_kernel2 (c : Dev nD) (E : Set ℕ) (i : grid2.Coords) (arg2 : Memref sig .tc .vmem S1x2000x192 .f32) (harg2 : arg2.IsWhole) (arg3 : Memref sig .tc .vmem S1x2000x64 .f32) (harg3 : arg3.IsWhole) (arg4 : Memref sig .tc .vmem S192x128 .f32) (harg4 : arg4.IsWhole) (arg5 : Memref sig .tc .vmem S128 .f32) (harg5 : arg5.IsWhole) (arg6 : Memref sig .tc .vmem S64x384 .f32) (harg6 : arg6.IsWhole) (arg7 : Memref sig .tc .vmem S128x384 .f32) (harg7 : arg7.IsWhole) (arg8 : Memref sig .tc .vmem S384 .f32) (harg8 : arg8.IsWhole) (arg9 : Memref sig .tc .vmem S384 .f32) (harg9 : arg9.IsWhole) (arg10 : Memref sig .tc .vmem S1x2000x128 .f32) (harg10 : arg10.IsWhole)
    (a : Vec F S1x2000x192 .f32) (x : Vec F S1x2000x64 .f32) (lw : Vec F S192x128 .f32) (lb : Vec F S128 .f32) (wi : Vec F S64x384 .f32) (wh : Vec F S128x384 .f32) (bi : Vec F S384 .f32) (bh : Vec F S384 .f32) (K : PUnit → sProp 𝕄) :
    iprop(owns (c : Thread nD τ) arg2 fullShare a ∗ owns (c : Thread nD τ) arg3 fullShare x ∗ owns (c : Thread nD τ) arg4 fullShare lw ∗ owns (c : Thread nD τ) arg5 fullShare lb ∗ owns (c : Thread nD τ) arg6 fullShare wi ∗ owns (c : Thread nD τ) arg7 fullShare wh ∗ owns (c : Thread nD τ) arg8 fullShare bi ∗ owns (c : Thread nD τ) arg9 fullShare bh ∗ (∃ d, owns (c : Thread nD τ) arg10 fullShare d)
        ∗ (iprop(owns (c : Thread nD τ) arg2 fullShare a ∗ owns (c : Thread nD τ) arg3 fullShare x ∗ owns (c : Thread nD τ) arg4 fullShare lw ∗ owns (c : Thread nD τ) arg5 fullShare lb ∗ owns (c : Thread nD τ) arg6 fullShare wi ∗ owns (c : Thread nD τ) arg7 fullShare wh ∗ owns (c : Thread nD τ) arg8 fullShare bi ∗ owns (c : Thread nD τ) arg9 fullShare bh ∗ owns (c : Thread nD τ) arg10 fullShare (gruOut a x lw lb wi wh bi bh)) -∗ K ⟨⟩))
      ⊢ wp frame (wpE (defs₀ (F := F)) Variants.none c none) E (cc2__gru_kernel i arg2 harg2 arg3 harg3 arg4 harg4 arg5 harg5 arg6 harg6 arg7 harg7 arg8 harg8 arg9 harg9 arg10 harg10) K := by
  simp only [cc2__gru_kernel_eq_skeleton]; unfold cc2__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverO _)

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d
theorem before2_3 (c : Dev nD) (t : Fin cfg2.N) (d) : (dat2 V c).before 3 t d = blk2 V c 3 t :=
  before2_3_of V (dat2 V c) (A_eq2 V c 3) (after2_3 V c) t d
theorem before2_4 (c : Dev nD) (t : Fin cfg2.N) (d) : (dat2 V c).before 4 t d = blk2 V c 4 t :=
  before2_4_of V (dat2 V c) (A_eq2 V c 4) (after2_4 V c) t d
theorem before2_5 (c : Dev nD) (t : Fin cfg2.N) (d) : (dat2 V c).before 5 t d = blk2 V c 5 t :=
  before2_5_of V (dat2 V c) (A_eq2 V c 5) (after2_5 V c) t d
theorem before2_6 (c : Dev nD) (t : Fin cfg2.N) (d) : (dat2 V c).before 6 t d = blk2 V c 6 t :=
  before2_6_of V (dat2 V c) (A_eq2 V c 6) (after2_6 V c) t d
theorem before2_7 (c : Dev nD) (t : Fin cfg2.N) (d) : (dat2 V c).before 7 t d = blk2 V c 7 t :=
  before2_7_of V (dat2 V c) (A_eq2 V c 7) (after2_7 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«416083_j74431783240178_1_alg».proof.Proof.KI.Diffuse0
import proofs.«416083_j74431783240178_1_alg».proof.Proof.KI.Diffuse1
import proofs.«416083_j74431783240178_1_alg».proof.Proof.KI.Gru
import proofs.«416083_j74431783240178_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b

def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
abbrev V3 : (c : Dev nD) → (b : Ref sig .tc) → Buf (Elt F) ((c : Thread nD τ).loc b) := fun c b => W3 m ρ c b
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop((∃ r, prngReg c r) ∗ Pipeline.prefHeld (pcfgs (F := F) 0).pre c (fun _ => fullShare) (adm 0).1 ∗ Pipeline.scopedRest (Pipeline.pin (pcfgs (F := F)) adm 0).spec c) : sProp 𝕄) ⊢ Pipeline.ΦA spec0 c from by
      unfold Pipeline.ΦA
      iintro ⟨Hp, -, Hr⟩
      isplitl [Hr]; · iexact Hr
      iexact Hp).trans (hin0 (V2 m ρ) c)
  hout c := (hout0 (V2 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (iprop((∃ r, prngReg c r) ∗ Pipeline.prefHeld (pcfgs (F := F) 1).pre c (fun _ => fullShare) (adm 1).1 ∗ Pipeline.scopedRest (Pipeline.pin (pcfgs (F := F)) adm 1).spec c) : sProp 𝕄) ⊢ Pipeline.ΦA spec1 c from by
      unfold Pipeline.ΦA
      iintro ⟨Hp, -, Hr⟩
      isplitl [Hr]; · iexact Hr
      iexact Hp).trans (hin1 (V3 m ρ) c)
  hout c := (hout1 (V3 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Frame.lean ====
import proofs.«416083_j74431783240178_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_of_untouched (c : Dev nD) (b : Ref sig .tc) (h0 : b ∉ hostOps0_W) (h1 : b ∉ hostOps0_1_W) (h2 : b ∉ hostOps2_W)
    (ha0 : ∀ w, Pipeline.arrRef spec0 w ≠ b) (ha1 : ∀ w, Pipeline.arrRef spec1 w ≠ b) :
    W5 m ρ c (Proc.devRef .tc b) = m ((c : Thread nD τ).loc b) :=
  calc W5 m ρ c (Proc.devRef .tc b)
    _ = W4 m ρ c (Proc.devRef .tc b) := StableHlo.after_of_writes_sub hostOps2 _ hostOps2_writes h2
    _ = W3 m ρ c (Proc.devRef .tc b) := W4_of_ne m ρ c b ha1
    _ = W2 m ρ c (Proc.devRef .tc b) := W3_of_ne m ρ c b ha0
    _ = W1 m ρ c (Proc.devRef .tc b) := StableHlo.after_of_writes_sub hostOps0_1 _ hostOps0_1_writes h1
    _ = W0 m ρ c (Proc.devRef .tc b) := StableHlo.after_of_writes_sub hostOps0 _ hostOps0_writes h0
    _ = m ((c : Thread nD τ).loc b) := rfl

theorem W6_main_arg0 (c : Dev nD) : W6 m ρ c (Proc.devRef .tc main_arg0) = m ((c : Thread nD τ).loc main_arg0) :=
  ((W6_arr m ρ c 1).trans (((dat2 (V5 m ρ) c).arrAt_in 1 rfl _).trans (A_eq2 (V5 m ρ) c 1))).trans
    (W5_of_untouched m ρ c main_arg0 (by decide) (by decide) (by decide) (by decide) (by decide))

theorem W6_main_arg1 (c : Dev nD) : W6 m ρ c (Proc.devRef .tc main_arg1) = m ((c : Thread nD τ).loc main_arg1) :=
  (W6_of_ne m ρ c main_arg1 (by decide)).trans
    (W5_of_untouched m ρ c main_arg1 (by decide) (by decide) (by decide) (by decide) (by decide))

theorem W6_main_arg2 (c : Dev nD) : W6 m ρ c (Proc.devRef .tc main_arg2) = m ((c : Thread nD τ).loc main_arg2) :=
  (W6_of_ne m ρ c main_arg2 (by decide)).trans
    (W5_of_untouched m ρ c main_arg2 (by decide) (by decide) (by decide) (by decide) (by decide))

theorem W6_main_arg3 (c : Dev nD) : W6 m ρ c (Proc.devRef .tc main_arg3) = m ((c : Thread nD τ).loc main_arg3) :=
  (W6_of_ne m ρ c main_arg3 (by decide)).trans
    (W5_of_untouched m ρ c main_arg3 (by decide) (by decide) (by decide) (by decide) (by decide))

theorem W6_main_arg4 (c : Dev nD) : W6 m ρ c (Proc.devRef .tc main_arg4) = m ((c : Thread nD τ).loc main_arg4) :=
  ((W6_arr m ρ c 3).trans (((dat2 (V5 m ρ) c).arrAt_in 3 rfl _).trans (A_eq2 (V5 m ρ) c 3))).trans
    (W5_of_untouched m ρ c main_arg4 (by decide) (by decide) (by decide) (by decide) (by decide))

theorem W6_main_arg5 (c : Dev nD) : W6 m ρ c (Proc.devRef .tc main_arg5) = m ((c : Thread nD τ).loc main_arg5) :=
  (W6_of_ne m ρ c main_arg5 (by decide)).trans
    (W5_of_untouched m ρ c main_arg5 (by decide) (by decide) (by decide) (by decide) (by decide))

theorem W6_main_arg6 (c : Dev nD) : W6 m ρ c (Proc.devRef .tc main_arg6) = m ((c : Thread nD τ).loc main_arg6) :=
  (W6_of_ne m ρ c main_arg6 (by decide)).trans
    (W5_of_untouched m ρ c main_arg6 (by decide) (by decide) (by decide) (by decide) (by decide))

theorem W6_main_arg7 (c : Dev nD) : W6 m ρ c (Proc.devRef .tc main_arg7) = m ((c : Thread nD τ).loc main_arg7) :=
  ((W6_arr m ρ c 6).trans (((dat2 (V5 m ρ) c).arrAt_in 6 rfl _).trans (A_eq2 (V5 m ρ) c 6))).trans
    (W5_of_untouched m ρ c main_arg7 (by decide) (by decide) (by decide) (by decide) (by decide))

theorem W6_main_arg8 (c : Dev nD) : W6 m ρ c (Proc.devRef .tc main_arg8) = m ((c : Thread nD τ).loc main_arg8) :=
  ((W6_arr m ρ c 7).trans (((dat2 (V5 m ρ) c).arrAt_in 7 rfl _).trans (A_eq2 (V5 m ρ) c 7))).trans
    (W5_of_untouched m ρ c main_arg8 (by decide) (by decide) (by decide) (by decide) (by decide))

theorem W6_result (c : Dev nD) : W6 m ρ c (Proc.devRef .tc main_v36) = (dat2 (V5 m ρ) c).arrAt 8 cfg2.N :=
  W6_arr m ρ c 8

theorem run_result : θ_run defs (onTc (τ := τ) (main (F := F))) ⟨m, fun _ => 0, ρ⟩ (fun r => ∀ c : Dev nD,
      r.2.mem ((c.tc : Thread nD τ).loc main_v36) = (dat2 (V5 m ρ) c).arrAt 8 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v36 (by decide))).trans (W6_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.LibBlockSum.lean ====
import Mathlib.Algebra.BigOperators.Fin
import Mathlib.Algebra.BigOperators.Intervals

open scoped BigOperators

namespace Cert.LibBlockSum

variable {β : Type*} [AddCommMonoid β]

theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.LibMatmul.lean ====
import Idealize.ShloMosaic.Lib.ValueIdx
import Idealize.ShloMosaic.PureOps.Ideal.Laws

open scoped BigOperators
open Idealize.ShloMosaic Idealize.ShloMosaic.ValueIdx

namespace Cert.LibMatmul

-- A matrix product into the zero block, read at (p, q), is the sum over its one contracted axis, given the record's index maps axis by axis.
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : FVec Ideal ⟨2, ![M, K]⟩ φ₁) (r : FVec Ideal ⟨2, ![K, N]⟩ φ₂) (p : Fin M) (q : Fin N) :
    FloatOps.matmul D none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.LibMatmul
-- ==== Proof.KI.ValDiffusePay.lean ====
import proofs.«416083_j74431783240178_1_alg».proof.Proof.KI.DiffuseBody
import proofs.«416083_j74431783240178_1_alg».proof.Proof.LibBlockSum
import proofs.«416083_j74431783240178_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem lhs_k0_dot_0 (i : S1024x768.Idx) (q : dot_S1024x1024_S1024x768_S1024x768_1_0_0_1_n_n.contr.Idx) :
    (dot_S1024x1024_S1024x768_S1024x768_1_0_0_1_n_n.lhsIdx i q 0).val = (i 0).val := by
  unfold DotDims.lhsIdx
  rw [dif_neg (show ¬(0 : Fin S1024x1024.rank) ∈ dot_S1024x1024_S1024x768_S1024x768_1_0_0_1_n_n.lhsBatch by decide), dif_pos (show (0 : Fin S1024x1024.rank) ∈ dot_S1024x1024_S1024x768_S1024x768_1_0_0_1_n_n.lhsNonContracting by decide)]
  rfl
theorem lhs_k0_dot_1 (i : S1024x768.Idx) (q : dot_S1024x1024_S1024x768_S1024x768_1_0_0_1_n_n.contr.Idx) :
    (dot_S1024x1024_S1024x768_S1024x768_1_0_0_1_n_n.lhsIdx i q 1).val = (q ⟨0, by decide⟩).val :=
  dot_S1024x1024_S1024x768_S1024x768_1_0_0_1_n_n.lhsIdx_val_of_single rfl i q
theorem rhs_k0_dot_0 (i : S1024x768.Idx) (q : dot_S1024x1024_S1024x768_S1024x768_1_0_0_1_n_n.contr.Idx) :
    (dot_S1024x1024_S1024x768_S1024x768_1_0_0_1_n_n.rhsIdx i q 0).val = (q ⟨0, by decide⟩).val :=
  dot_S1024x1024_S1024x768_S1024x768_1_0_0_1_n_n.rhsIdx_val_of_single rfl i q
theorem rhs_k0_dot_1 (i : S1024x768.Idx) (q : dot_S1024x1024_S1024x768_S1024x768_1_0_0_1_n_n.contr.Idx) :
    (dot_S1024x1024_S1024x768_S1024x768_1_0_0_1_n_n.rhsIdx i q 1).val = (i 1).val := by
  unfold DotDims.rhsIdx
  rw [dif_neg (show ¬(1 : Fin S1024x768.rank) ∈ dot_S1024x1024_S1024x768_S1024x768_1_0_0_1_n_n.rhsBatch by decide), dif_pos (show (1 : Fin S1024x768.rank) ∈ dot_S1024x1024_S1024x768_S1024x768_1_0_0_1_n_n.rhsNonContracting by decide)]
  rfl

theorem k0_dot_apply (a : FVec Ideal S1024x1024 .bf16) (x : FVec Ideal S1024x768 .bf16) (p : Fin 1024) (q : Fin 768) :
    FloatOps.matmul dot_S1024x1024_S1024x768_S1024x768_1_0_0_1_n_n none a x (constant (F := Ideal) S1024x768 .f32 0x00000000#32) (ix2 p q)
      = ∑ j : Fin 1024, a (ix2 p j) * x (ix2 j q) :=
  Cert.LibMatmul.matmul_zero_apply _ rfl rfl lhs_k0_dot_0 lhs_k0_dot_1 rhs_k0_dot_0 rhs_k0_dot_1 a x p q

theorem k0_pay2_apply (a : Vec Ideal S1024x1024 .bf16) (x s : Vec Ideal S1024x768 .f32) (p : Fin 1024) (q : Fin 768) :
    k0_pay2 (F := Ideal) a x s (ix2 p q) = s (ix2 p q) + ∑ j : Fin 1024, a (ix2 p j) * x (ix2 j q) := by
  unfold k0_pay2
  simp only [shapeCast_self]
  refine (addf_apply _ _ _).trans ?_
  exact congrArg (s (ix2 p q) + ·) (k0_dot_apply a _ p q)

theorem k0_pay1_apply (p : Fin 1024) (q : Fin 768) : k0_pay1 (F := Ideal) (ix2 p q) = 0 := by
  unfold k0_pay1
  simp only [shapeCast_self]
  exact Ideal.ofBits_zero_f32

-- Ten steps of 1024 products each add up to one row of the whole product.
theorem accOf_row {N : ℕ} (a : Fin N → Vec Ideal S1024x1024 .bf16) (x : Fin N → Vec Ideal S1024x768 .f32) (hN : N = 100)
    (g : ℕ → EReal) (i : ℕ) (hi : i < 10) (p : Fin 1024) (q : Fin 768)
    (hg : ∀ (k : ℕ) (hk : k < 10) (h : 10 * i + k < N),
      ∑ j : Fin 1024, a ⟨10 * i + k, h⟩ (ix2 p j) * x ⟨10 * i + k, h⟩ (ix2 j q) = ∑ j : Fin 1024, g (1024 * k + j.val))
    (h : 10 * i + 9 < N) :
    accOf a x (10 * i + 9) h (ix2 p q) = ∑ r : Fin 10240, g r.val := by
  refine Cert.LibBlockSum.fold_eq_total g 1024 (N := 10)
    (fun k hk => accOf a x (10 * i + k) (by omega) (ix2 p q)) ?_ ?_ 9 (by decide) (by decide)
  · intro h0
    have hlt : 10 * i + 0 < N := by omega
    refine (congrFun (accOf_first a x ⟨10 * i + 0, hlt⟩ (by show (10 * i + 0) % 10 = 0; omega)) (ix2 p q)).trans ?_
    refine (k0_pay2_apply _ _ (k0_pay1 (F := Ideal)) p q).trans ?_
    rw [k0_pay1_apply]
    exact congrArg (0 + ·) (hg 0 (by decide) hlt)
  · intro k hk
    have hlt : 10 * i + (k + 1) < N := by omega
    refine (congrFun (accOf_next a x ⟨10 * i + (k + 1), hlt⟩ (by show ¬ (10 * i + (k + 1)) % 10 = 0; omega)) (ix2 p q)).trans ?_
    refine (k0_pay2_apply _ _ _ p q).trans ?_
    rw [accOf_congr a x (show 10 * i + (k + 1) - 1 = 10 * i + k by omega) _ (by omega)]
    exact congrArg (_ + ·) (hg (k + 1) hk hlt)

end Cert.KernelIdeal.Hand

end
-- ==== Proof.Spec.lean ====
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

abbrev SE : Shape := ⟨2, ![2, 160000]⟩
abbrev SX : Shape := ⟨3, ![4, 10000, 64]⟩
abbrev SH : Shape := ⟨3, ![4, 10000, 128]⟩
abbrev SLw : Shape := ⟨2, ![128, 192]⟩
abbrev SLb : Shape := ⟨1, ![128]⟩
abbrev SWi : Shape := ⟨2, ![384, 64]⟩
abbrev SWh : Shape := ⟨2, ![384, 128]⟩
abbrev SB : Shape := ⟨1, ![384]⟩

def endpoint (E : SE.Idx → BitVec 32) (row : Fin 2) (p : Fin 170000) : ℕ :=
  if h : p.val < 160000 then (E (ix2 row ⟨p.val, h⟩)).toNat else p.val - 160000

def InRange (E : SE.Idx → BitVec 32) : Prop := ∀ i : SE.Idx, (E i).toNat < 10000

theorem endpoint_lt {E : SE.Idx → BitVec 32} (hE : InRange E) (row : Fin 2) (p : Fin 170000) : endpoint E row p < 10000 := by
  unfold endpoint; split
  · exact hE _
  · have := p.isLt; omega

def feat0 (x : SX.Idx → EReal) (h : SH.Idx → EReal) (b : Fin 4) (n : ℕ) (f : Fin 192) : EReal :=
  if hn : n < 10000 then
    (if hf : f.val < 64 then x (ix3 b ⟨n, hn⟩ ⟨f.val, hf⟩) else h (ix3 b ⟨n, hn⟩ ⟨f.val - 64, by omega⟩))
  else 0

def diffuse (E : SE.Idx → BitVec 32) (y : Fin 4 → ℕ → Fin 192 → EReal) : Fin 4 → ℕ → Fin 192 → EReal :=
  fun b n f => ∑ p : Fin 170000, if endpoint E 1 p = n then y b (endpoint E 0 p) f else 0

def adj (E : SE.Idx → BitVec 32) (n r : ℕ) : EReal :=
  ∑ p : Fin 170000, if endpoint E 1 p = n ∧ endpoint E 0 p = r then 1 else 0

abbrev one32 : EReal := Ideal.ofBits .f32 0x3F800000#32
theorem one32_eq : one32 = 1 := by simp [one32, Ideal.ofBits, Ideal.ieee, -EReal.coe_mul]; norm_num

def convOut (y : Fin 192 → EReal) (lw : SLw.Idx → EReal) (lb : SLb.Idx → EReal) (q : Fin 128) : EReal :=
  (∑ c : Fin 192, y c * lw (ix2 q c)) + lb (ix1 q)
def gateI (xr : Fin 64 → EReal) (wi : SWi.Idx → EReal) (bi : SB.Idx → EReal) (g : Fin 384) : EReal :=
  (∑ d : Fin 64, xr d * wi (ix2 g d)) + bi (ix1 g)
def gateH (co : Fin 128 → EReal) (wh : SWh.Idx → EReal) (bh : SB.Idx → EReal) (g : Fin 384) : EReal :=
  (∑ q : Fin 128, co q * wh (ix2 g q)) + bh (ix1 g)
def cell (gi gh : Fin 384 → EReal) (co : Fin 128 → EReal) (k : Fin 128) : EReal :=
  let r := Ideal.logistic (gi ⟨k.val, by omega⟩ + gh ⟨k.val, by omega⟩)
  let z := Ideal.logistic (gi ⟨k.val + 128, by omega⟩ + gh ⟨k.val + 128, by omega⟩)
  let nn := Ideal.tanh (gi ⟨k.val + 256, by omega⟩ + r * gh ⟨k.val + 256, by omega⟩)
  (one32 - z) * nn + z * co k

def node (y : Fin 192 → EReal) (xr : Fin 64 → EReal) (lw : SLw.Idx → EReal) (lb : SLb.Idx → EReal) (wi : SWi.Idx → EReal)
    (wh : SWh.Idx → EReal) (bi bh : SB.Idx → EReal) (k : Fin 128) : EReal :=
  cell (gateI xr wi bi) (gateH (convOut y lw lb) wh bh) (convOut y lw lb) k

def result (E : SE.Idx → BitVec 32) (x : SX.Idx → EReal) (h : SH.Idx → EReal) (lw : SLw.Idx → EReal) (lb : SLb.Idx → EReal)
    (wi : SWi.Idx → EReal) (wh : SWh.Idx → EReal) (bi bh : SB.Idx → EReal) : SH.Idx → EReal :=
  fun j => node (fun c => diffuse E (diffuse E (feat0 x h)) (j 0) (j 1).val c) (fun d => x (ix3 (j 0) (j 1) d)) lw lb wi wh bi bh (j 2)

theorem indicator_sum_mul {ι : Type*} (s : Finset ι) (P : ι → Prop) [DecidablePred P] (y : EReal) :
    (∑ p ∈ s, if P p then (1 : EReal) else 0) * y = ∑ p ∈ s, if P p then y else 0 := by
  classical
  induction s using Finset.induction_on with
  | empty => simp
  | insert a s ha ih =>
    rw [Finset.sum_insert ha, Finset.sum_insert ha, ← ih]
    have h1 : (0 : EReal) ≤ if P a then (1 : EReal) else 0 := by split <;> norm_num
    have h2 : (0 : EReal) ≤ ∑ p ∈ s, if P p then (1 : EReal) else 0 :=
      Finset.sum_nonneg fun p _ => by split <;> norm_num
    rw [EReal.right_distrib_of_nonneg h1 h2]
    congr 1
    split <;> simp

theorem adj_mul_sum (E : SE.Idx → BitVec 32) (M : ℕ) (hM : ∀ p, endpoint E 0 p < M) (n : ℕ) (y : ℕ → EReal) :
    ∑ r : Fin M, adj E n r.val * y r.val = ∑ p : Fin 170000, if endpoint E 1 p = n then y (endpoint E 0 p) else 0 := by
  classical
  unfold adj
  simp_rw [indicator_sum_mul]
  rw [Finset.sum_comm]
  refine Finset.sum_congr rfl fun p _ => ?_
  by_cases hn : endpoint E 1 p = n
  · simp only [hn, true_and, if_true]
    rw [Finset.sum_eq_single (⟨endpoint E 0 p, hM p⟩ : Fin M)]
    · simp
    · intro b _ hb
      rw [if_neg]; intro h; exact hb (Fin.ext h.symm)
    · intro h; exact absurd (Finset.mem_univ _) h
  · simp [hn]

end Cert.Spec

end
-- ==== Proof.KI.ValDiffuse0.lean ====
import proofs.«416083_j74431783240178_1_alg».proof.Proof.KI.Diffuse0
import proofs.«416083_j74431783240178_1_alg».proof.Proof.KI.ValDiffusePay
import proofs.«416083_j74431783240178_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev k0_mat (c : Dev nD) : FVec Ideal S10240x10240 .bf16 := V c main_v23
abbrev k0_opd (c : Dev nD) : FVec Ideal S10240x768 .f32 := V c main_v27

theorem cc0_N : cfg0.N = 100 := (by decide : grid0.N = 100)

theorem cc0_idx_facts : ∀ t : Fin cfg0.N,
    win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = t.val / 10 ∧ win0_2.index t (1 : Fin 2) = 0 :=
  (by decide +kernel : ∀ t : Fin grid0.N,
    win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = t.val / 10 ∧ win0_2.index t (1 : Fin 2) = 0)

theorem blk0_0_apply (c : Dev nD) (t : Fin cfg0.N) (x : S1024x1024.Idx) (k : S10240x10240.Idx)
    (hk0 : (k 0).val = 1024 * (t.val / 10) + (x 0).val) (hk1 : (k 1).val = 1024 * (t.val % 10) + (x 1).val) :
    (blk0 V c 0 t : Vec Ideal S1024x1024 .bf16) x = k0_mat V c k := by
  obtain ⟨e0, e1, -⟩ := cc0_idx_facts t
  unfold blk0
  rw [View.read_apply]
  show V c main_v23 _ = V c main_v23 _
  congr 1
  funext a
  apply Fin.ext
  match a with
  | ⟨0, _⟩ => show win0_0.index t 0 * 1024 + 1 * (x 0).val = (k 0).val; rw [e0, hk0]; omega
  | ⟨1, _⟩ => show win0_0.index t 1 * 1024 + 1 * (x 1).val = (k 1).val; rw [e1, hk1]; omega

theorem blk0_1_apply (c : Dev nD) (t : Fin cfg0.N) (x : S1024x768.Idx) (k : S10240x768.Idx)
    (hk0 : (k 0).val = 1024 * (t.val % 10) + (x 0).val) (hk1 : (k 1).val = (x 1).val) :
    (blk0 V c 1 t : Vec Ideal S1024x768 .f32) x = k0_opd V c k := by
  obtain ⟨-, -, e0, e1, -⟩ := cc0_idx_facts t
  unfold blk0
  rw [View.read_apply]
  show V c main_v27 _ = V c main_v27 _
  congr 1
  funext a
  apply Fin.ext
  match a with
  | ⟨0, _⟩ => show win0_1.index t 0 * 1024 + 1 * (x 0).val = (k 0).val; rw [e0, hk0]; omega
  | ⟨1, _⟩ => show win0_1.index t 1 * 768 + 1 * (x 1).val = (k 1).val; rw [e1, hk1]; omega

def k0_term (c : Dev nD) (n : Fin 10240) (q : Fin 768) (r : ℕ) : EReal :=
  k0_mat V c (ix2 n ⟨r % 10240, Nat.mod_lt _ (by decide)⟩) * k0_opd V c (ix2 ⟨r % 10240, Nat.mod_lt _ (by decide)⟩ q)

theorem k0_term_fin (c : Dev nD) (n : Fin 10240) (q : Fin 768) (r : Fin 10240) :
    k0_term V c n q r.val = k0_mat V c (ix2 n r) * k0_opd V c (ix2 r q) := by
  unfold k0_term
  have e : (⟨r.val % 10240, Nat.mod_lt _ (by decide)⟩ : Fin 10240) = r := Fin.ext (Nat.mod_eq_of_lt r.isLt)
  rw [e]

theorem blk0_prod (c : Dev nD) (t : Fin cfg0.N) (i k : ℕ) (hi : i < 10) (hk : k < 10) (ht : t.val = 10 * i + k)
    (a : Vec Ideal S1024x1024 .bf16) (x : Vec Ideal S1024x768 .f32) (ha : blk0 V c 0 t = a) (hx : blk0 V c 1 t = x)
    (p : Fin 1024) (q : Fin 768) :
    ∑ j : Fin 1024, a (ix2 p j) * x (ix2 j q)
      = ∑ j : Fin 1024, k0_term V c ⟨1024 * i + p.val, by have := p.isLt; omega⟩ q (1024 * k + j.val) := by
  subst ha
  subst hx
  refine Finset.sum_congr rfl fun j _ => ?_
  have hp := p.isLt
  have hj := j.isLt
  unfold k0_term
  rw [blk0_0_apply V c t (ix2 p j) (ix2 ⟨1024 * i + p.val, by omega⟩ ⟨(1024 * k + j.val) % 10240, Nat.mod_lt _ (by decide)⟩)
        (by show 1024 * i + p.val = 1024 * (t.val / 10) + p.val; rw [ht]; omega)
        (by show (1024 * k + j.val) % 10240 = 1024 * (t.val % 10) + j.val; rw [ht]; omega),
      blk0_1_apply V c t (ix2 j q) (ix2 ⟨(1024 * k + j.val) % 10240, Nat.mod_lt _ (by decide)⟩ q)
        (by show (1024 * k + j.val) % 10240 = 1024 * (t.val % 10) + j.val; rw [ht]; omega) rfl]

theorem acc0_congr (c : Dev nD) {a b : ℕ} (h : a = b) (ha : a < cfg0.N) (hb : b < cfg0.N) :
    acc0 V c a ha = acc0 V c b hb := by
  subst h; rfl

theorem acc0_row (c : Dev nD) (i : ℕ) (hi : i < 10) (p : Fin 1024) (q : Fin 768) (h : 10 * i + 9 < cfg0.N) :
    (acc0 V c (10 * i + 9) h) (ix2 p q)
      = ∑ r : Fin 10240, k0_term V c ⟨1024 * i + p.val, by have := p.isLt; omega⟩ q r.val :=
  accOf_row _ _ cc0_N _ i hi p q
    (fun k hk hlt => blk0_prod V c ⟨10 * i + k, hlt⟩ i k hi hk rfl (blk0 V c 0 ⟨10 * i + k, hlt⟩) (blk0 V c 1 ⟨10 * i + k, hlt⟩) rfl rfl p q) h

def arr0_final_G (c : Dev nD) : S10240x768.Idx → EReal := fun i =>
  ∑ r : Fin 10240, k0_mat V c (ix2 ⟨(i 0).val, idx2_lt0 i⟩ r) * k0_opd V c (ix2 r ⟨(i 1).val, idx2_lt1 i⟩)

theorem arr0_final_flushed (c : Dev nD) (t : Fin cfg0.N) (hf : (cfg0.win 2).flush t = true) :
    (dat0 (F := Ideal) V c).flushed 2 t = ((cfg0.win 2).blk t).view.read (Elt Ideal) (arr0_final_G V c) := by
  have hN := cc0_N
  have h9 : t.val % 10 = 9 := (flush0_2 t).mp hf
  have htl := t.isLt
  obtain ⟨-, -, -, -, e0, e1⟩ := cc0_idx_facts t
  funext y
  obtain ⟨p, q, rfl⟩ : ∃ (p : Fin 1024) (q : Fin 768), y = ix2 p q := ⟨y 0, y 1, eq_ix2 y⟩
  have hp := p.isLt
  rw [View.read_apply]
  have hemb : ((cfg0.win 2).blk t).view.emb (ix2 p q) = (ix2 ⟨1024 * (t.val / 10) + p.val, by omega⟩ q : S10240x768.Idx) := by
    funext a
    apply Fin.ext
    match a with
    | ⟨0, _⟩ => show win0_2.index t (0 : Fin 2) * 1024 + 1 * p.val = 1024 * (t.val / 10) + p.val; rw [e0]; omega
    | ⟨1, _⟩ => show win0_2.index t (1 : Fin 2) * 768 + 1 * q.val = q.val; rw [e1]; omega
  rw [hemb]
  show (cfg0.win 2).cut (grid0.coords t) ((dat0 (F := Ideal) V c).after 2 t) (ix2 p q) = _
  rw [after0_2]
  show (acc0 V c t.val t.isLt) (ix2 p q) = _
  rw [acc0_congr V c (show t.val = 10 * (t.val / 10) + 9 by omega) t.isLt (by omega),
    acc0_row V c (t.val / 10) (by omega) p q]
  unfold arr0_final_G
  exact Finset.sum_congr rfl fun r _ => k0_term_fin V c _ q r

theorem arr0_final_mem (t : Fin cfg0.N) (i : S10240x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole (Pipeline.arrRef spec0 2)).slice (win0_2.rect t)).set ↔ _
  rw [View.set_slice_whole, Rect.mem_set_unit]
  exact Iff.rfl

theorem arr0_final_cover (i : S10240x768.Idx) :
    ∃ t : Fin cfg0.N, (cfg0.win 2).flush t = true ∧ i ∈ ((cfg0.win 2).blk t).view.set := by
  have hN := cc0_N
  have h0 : (i 0).val < 10240 := idx2_lt0 i
  have h1 : (i 1).val < 768 := idx2_lt1 i
  have hlt : 10 * ((i 0).val / 1024) + 9 < cfg0.N := by rw [hN]; omega
  obtain ⟨-, -, -, -, e0, e1⟩ := cc0_idx_facts ⟨10 * ((i 0).val / 1024) + 9, hlt⟩
  refine ⟨⟨10 * ((i 0).val / 1024) + 9, hlt⟩, (flush0_2 _).mpr (by show (10 * ((i 0).val / 1024) + 9) % 10 = 9; omega), ?_⟩
  rw [arr0_final_mem]
  intro a
  match a with
  | ⟨0, _⟩ =>
    show win0_2.index ⟨10 * ((i 0).val / 1024) + 9, hlt⟩ (0 : Fin 2) * 1024 ≤ (i 0).val ∧ (i 0).val < win0_2.index ⟨10 * ((i 0).val / 1024) + 9, hlt⟩ (0 : Fin 2) * 1024 + 1024
    rw [e0]
    show (10 * ((i 0).val / 1024) + 9) / 10 * 1024 ≤ (i 0).val ∧ (i 0).val < (10 * ((i 0).val / 1024) + 9) / 10 * 1024 + 1024
    omega
  | ⟨1, _⟩ =>
    show win0_2.index ⟨10 * ((i 0).val / 1024) + 9, hlt⟩ (1 : Fin 2) * 768 ≤ (i 1).val ∧ (i 1).val < win0_2.index ⟨10 * ((i 0).val / 1024) + 9, hlt⟩ (1 : Fin 2) * 768 + 768
    rw [e1]
    omega

theorem arr0_final_whole (c : Dev nD) : (dat0 (F := Ideal) V c).arrAt 2 cfg0.N = arr0_final_G V c :=
  (dat0 (F := Ideal) V c).arrAt_eq_of_cover 2 (arr0_final_G V c) (fun t hf => arr0_final_flushed V c t hf) arr0_final_cover

theorem arr0_final (c : Dev nD) (A : S10240x10240.Idx → EReal) (X : S10240x768.Idx → EReal)
    (hA : V c main_v23 = A) (hX : V c main_v27 = X) (n : Fin 10240) (f : Fin 768) :
    (dat0 (F := Ideal) V c).arrAt 2 cfg0.N (ix2 n f) = ∑ r : Fin 10240, A (ix2 n r) * X (ix2 r f) := by
  subst hA
  subst hX
  refine (congrFun (arr0_final_whole V c) (ix2 n f)).trans ?_
  rfl

end Cert.KernelIdeal.Hand

end
-- ==== Proof.KI.ValDiffuse1.lean ====
import proofs.«416083_j74431783240178_1_alg».proof.Proof.KI.Diffuse1
import proofs.«416083_j74431783240178_1_alg».proof.Proof.KI.ValDiffusePay
import proofs.«416083_j74431783240178_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev k1_mat (c : Dev nD) : FVec Ideal S10240x10240 .bf16 := V c main_v23
abbrev k1_opd (c : Dev nD) : FVec Ideal S10240x768 .f32 := V c main_v28

theorem cc1_N : cfg1.N = 100 := (by decide : grid1.N = 100)

theorem cc1_idx_facts : ∀ t : Fin cfg1.N,
    win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = t.val / 10 ∧ win1_2.index t (1 : Fin 2) = 0 :=
  (by decide +kernel : ∀ t : Fin grid1.N,
    win1_0.index t (0 : Fin 2) = t.val / 10 ∧ win1_0.index t (1 : Fin 2) = t.val % 10
    ∧ win1_1.index t (0 : Fin 2) = t.val % 10 ∧ win1_1.index t (1 : Fin 2) = 0
    ∧ win1_2.index t (0 : Fin 2) = t.val / 10 ∧ win1_2.index t (1 : Fin 2) = 0)

theorem blk1_0_apply (c : Dev nD) (t : Fin cfg1.N) (x : S1024x1024.Idx) (k : S10240x10240.Idx)
    (hk0 : (k 0).val = 1024 * (t.val / 10) + (x 0).val) (hk1 : (k 1).val = 1024 * (t.val % 10) + (x 1).val) :
    (blk1 V c 0 t : Vec Ideal S1024x1024 .bf16) x = k1_mat V c k := by
  obtain ⟨e0, e1, -⟩ := cc1_idx_facts t
  unfold blk1
  rw [View.read_apply]
  show V c main_v23 _ = V c main_v23 _
  congr 1
  funext a
  apply Fin.ext
  match a with
  | ⟨0, _⟩ => show win1_0.index t 0 * 1024 + 1 * (x 0).val = (k 0).val; rw [e0, hk0]; omega
  | ⟨1, _⟩ => show win1_0.index t 1 * 1024 + 1 * (x 1).val = (k 1).val; rw [e1, hk1]; omega

theorem blk1_1_apply (c : Dev nD) (t : Fin cfg1.N) (x : S1024x768.Idx) (k : S10240x768.Idx)
    (hk0 : (k 0).val = 1024 * (t.val % 10) + (x 0).val) (hk1 : (k 1).val = (x 1).val) :
    (blk1 V c 1 t : Vec Ideal S1024x768 .f32) x = k1_opd V c k := by
  obtain ⟨-, -, e0, e1, -⟩ := cc1_idx_facts t
  unfold blk1
  rw [View.read_apply]
  show V c main_v28 _ = V c main_v28 _
  congr 1
  funext a
  apply Fin.ext
  match a with
  | ⟨0, _⟩ => show win1_1.index t 0 * 1024 + 1 * (x 0).val = (k 0).val; rw [e0, hk0]; omega
  | ⟨1, _⟩ => show win1_1.index t 1 * 768 + 1 * (x 1).val = (k 1).val; rw [e1, hk1]; omega

def k1_term (c : Dev nD) (n : Fin 10240) (q : Fin 768) (r : ℕ) : EReal :=
  k1_mat V c (ix2 n ⟨r % 10240, Nat.mod_lt _ (by decide)⟩) * k1_opd V c (ix2 ⟨r % 10240, Nat.mod_lt _ (by decide)⟩ q)

theorem k1_term_fin (c : Dev nD) (n : Fin 10240) (q : Fin 768) (r : Fin 10240) :
    k1_term V c n q r.val = k1_mat V c (ix2 n r) * k1_opd V c (ix2 r q) := by
  unfold k1_term
  have e : (⟨r.val % 10240, Nat.mod_lt _ (by decide)⟩ : Fin 10240) = r := Fin.ext (Nat.mod_eq_of_lt r.isLt)
  rw [e]

theorem blk1_prod (c : Dev nD) (t : Fin cfg1.N) (i k : ℕ) (hi : i < 10) (hk : k < 10) (ht : t.val = 10 * i + k)
    (a : Vec Ideal S1024x1024 .bf16) (x : Vec Ideal S1024x768 .f32) (ha : blk1 V c 0 t = a) (hx : blk1 V c 1 t = x)
    (p : Fin 1024) (q : Fin 768) :
    ∑ j : Fin 1024, a (ix2 p j) * x (ix2 j q)
      = ∑ j : Fin 1024, k1_term V c ⟨1024 * i + p.val, by have := p.isLt; omega⟩ q (1024 * k + j.val) := by
  subst ha
  subst hx
  refine Finset.sum_congr rfl fun j _ => ?_
  have hp := p.isLt
  have hj := j.isLt
  unfold k1_term
  rw [blk1_0_apply V c t (ix2 p j) (ix2 ⟨1024 * i + p.val, by omega⟩ ⟨(1024 * k + j.val) % 10240, Nat.mod_lt _ (by decide)⟩)
        (by show 1024 * i + p.val = 1024 * (t.val / 10) + p.val; rw [ht]; omega)
        (by show (1024 * k + j.val) % 10240 = 1024 * (t.val % 10) + j.val; rw [ht]; omega),
      blk1_1_apply V c t (ix2 j q) (ix2 ⟨(1024 * k + j.val) % 10240, Nat.mod_lt _ (by decide)⟩ q)
        (by show (1024 * k + j.val) % 10240 = 1024 * (t.val % 10) + j.val; rw [ht]; omega) rfl]

theorem acc1_congr (c : Dev nD) {a b : ℕ} (h : a = b) (ha : a < cfg1.N) (hb : b < cfg1.N) :
    acc1 V c a ha = acc1 V c b hb := by
  subst h; rfl

theorem acc1_row (c : Dev nD) (i : ℕ) (hi : i < 10) (p : Fin 1024) (q : Fin 768) (h : 10 * i + 9 < cfg1.N) :
    (acc1 V c (10 * i + 9) h) (ix2 p q)
      = ∑ r : Fin 10240, k1_term V c ⟨1024 * i + p.val, by have := p.isLt; omega⟩ q r.val :=
  accOf_row _ _ cc1_N _ i hi p q
    (fun k hk hlt => blk1_prod V c ⟨10 * i + k, hlt⟩ i k hi hk rfl (blk1 V c 0 ⟨10 * i + k, hlt⟩) (blk1 V c 1 ⟨10 * i + k, hlt⟩) rfl rfl p q) h

def arr1_final_G (c : Dev nD) : S10240x768.Idx → EReal := fun i =>
  ∑ r : Fin 10240, k1_mat V c (ix2 ⟨(i 0).val, idx2_lt0 i⟩ r) * k1_opd V c (ix2 r ⟨(i 1).val, idx2_lt1 i⟩)

theorem arr1_final_flushed (c : Dev nD) (t : Fin cfg1.N) (hf : (cfg1.win 2).flush t = true) :
    (dat1 (F := Ideal) V c).flushed 2 t = ((cfg1.win 2).blk t).view.read (Elt Ideal) (arr1_final_G V c) := by
  have hN := cc1_N
  have h9 : t.val % 10 = 9 := (flush1_2 t).mp hf
  have htl := t.isLt
  obtain ⟨-, -, -, -, e0, e1⟩ := cc1_idx_facts t
  funext y
  obtain ⟨p, q, rfl⟩ : ∃ (p : Fin 1024) (q : Fin 768), y = ix2 p q := ⟨y 0, y 1, eq_ix2 y⟩
  have hp := p.isLt
  rw [View.read_apply]
  have hemb : ((cfg1.win 2).blk t).view.emb (ix2 p q) = (ix2 ⟨1024 * (t.val / 10) + p.val, by omega⟩ q : S10240x768.Idx) := by
    funext a
    apply Fin.ext
    match a with
    | ⟨0, _⟩ => show win1_2.index t (0 : Fin 2) * 1024 + 1 * p.val = 1024 * (t.val / 10) + p.val; rw [e0]; omega
    | ⟨1, _⟩ => show win1_2.index t (1 : Fin 2) * 768 + 1 * q.val = q.val; rw [e1]; omega
  rw [hemb]
  show (cfg1.win 2).cut (grid1.coords t) ((dat1 (F := Ideal) V c).after 2 t) (ix2 p q) = _
  rw [after1_2]
  show (acc1 V c t.val t.isLt) (ix2 p q) = _
  rw [acc1_congr V c (show t.val = 10 * (t.val / 10) + 9 by omega) t.isLt (by omega),
    acc1_row V c (t.val / 10) (by omega) p q]
  unfold arr1_final_G
  exact Finset.sum_congr rfl fun r _ => k1_term_fin V c _ q r

theorem arr1_final_mem (t : Fin cfg1.N) (i : S10240x768.Idx) :
    i ∈ ((cfg1.win 2).blk t).view.set ↔ ∀ a : Fin 2, win1_2.index t a * S1024x768.size a ≤ (i a).val ∧ (i a).val < win1_2.index t a * S1024x768.size a + S1024x768.size a := by
  show i ∈ ((View.whole (Pipeline.arrRef spec1 2)).slice (win1_2.rect t)).set ↔ _
  rw [View.set_slice_whole, Rect.mem_set_unit]
  exact Iff.rfl

theorem arr1_final_cover (i : S10240x768.Idx) :
    ∃ t : Fin cfg1.N, (cfg1.win 2).flush t = true ∧ i ∈ ((cfg1.win 2).blk t).view.set := by
  have hN := cc1_N
  have h0 : (i 0).val < 10240 := idx2_lt0 i
  have h1 : (i 1).val < 768 := idx2_lt1 i
  have hlt : 10 * ((i 0).val / 1024) + 9 < cfg1.N := by rw [hN]; omega
  obtain ⟨-, -, -, -, e0, e1⟩ := cc1_idx_facts ⟨10 * ((i 0).val / 1024) + 9, hlt⟩
  refine ⟨⟨10 * ((i 0).val / 1024) + 9, hlt⟩, (flush1_2 _).mpr (by show (10 * ((i 0).val / 1024) + 9) % 10 = 9; omega), ?_⟩
  rw [arr1_final_mem]
  intro a
  match a with
  | ⟨0, _⟩ =>
    show win1_2.index ⟨10 * ((i 0).val / 1024) + 9, hlt⟩ (0 : Fin 2) * 1024 ≤ (i 0).val ∧ (i 0).val < win1_2.index ⟨10 * ((i 0).val / 1024) + 9, hlt⟩ (0 : Fin 2) * 1024 + 1024
    rw [e0]
    show (10 * ((i 0).val / 1024) + 9) / 10 * 1024 ≤ (i 0).val ∧ (i 0).val < (10 * ((i 0).val / 1024) + 9) / 10 * 1024 + 1024
    omega
  | ⟨1, _⟩ =>
    show win1_2.index ⟨10 * ((i 0).val / 1024) + 9, hlt⟩ (1 : Fin 2) * 768 ≤ (i 1).val ∧ (i 1).val < win1_2.index ⟨10 * ((i 0).val / 1024) + 9, hlt⟩ (1 : Fin 2) * 768 + 768
    rw [e1]
    omega

theorem arr1_final_whole (c : Dev nD) : (dat1 (F := Ideal) V c).arrAt 2 cfg1.N = arr1_final_G V c :=
  (dat1 (F := Ideal) V c).arrAt_eq_of_cover 2 (arr1_final_G V c) (fun t hf => arr1_final_flushed V c t hf) arr1_final_cover

theorem arr1_final (c : Dev nD) (A : S10240x10240.Idx → EReal) (X : S10240x768.Idx → EReal)
    (hA : V c main_v23 = A) (hX : V c main_v28 = X) (n : Fin 10240) (f : Fin 768) :
    (dat1 (F := Ideal) V c).arrAt 2 cfg1.N (ix2 n f) = ∑ r : Fin 10240, A (ix2 n r) * X (ix2 r f) := by
  subst hA
  subst hX
  refine (congrFun (arr1_final_whole V c) (ix2 n f)).trans ?_
  rfl

end Cert.KernelIdeal.Hand

end
-- ==== Proof.KI.ValGruPay.lean ====
import proofs.«416083_j74431783240178_1_alg».proof.Proof.Gen.KernelIdeal.Skeleton
import proofs.«416083_j74431783240178_1_alg».proof.Proof.Spec
import proofs.«416083_j74431783240178_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

theorem lhs_mmLin_0 (i : S2000x128.Idx) (q : dot_S2000x192_S192x128_S2000x128_1_0_0_1_n_n.contr.Idx) :
    (dot_S2000x192_S192x128_S2000x128_1_0_0_1_n_n.lhsIdx i q 0).val = (i 0).val := by
  unfold DotDims.lhsIdx
  rw [dif_neg (show ¬(0 : Fin S2000x192.rank) ∈ dot_S2000x192_S192x128_S2000x128_1_0_0_1_n_n.lhsBatch by decide), dif_pos (show (0 : Fin S2000x192.rank) ∈ dot_S2000x192_S192x128_S2000x128_1_0_0_1_n_n.lhsNonContracting by decide)]
  rfl
theorem lhs_mmLin_1 (i : S2000x128.Idx) (q : dot_S2000x192_S192x128_S2000x128_1_0_0_1_n_n.contr.Idx) :
    (dot_S2000x192_S192x128_S2000x128_1_0_0_1_n_n.lhsIdx i q 1).val = (q ⟨0, by decide⟩).val :=
  dot_S2000x192_S192x128_S2000x128_1_0_0_1_n_n.lhsIdx_val_of_single rfl i q
theorem rhs_mmLin_0 (i : S2000x128.Idx) (q : dot_S2000x192_S192x128_S2000x128_1_0_0_1_n_n.contr.Idx) :
    (dot_S2000x192_S192x128_S2000x128_1_0_0_1_n_n.rhsIdx i q 0).val = (q ⟨0, by decide⟩).val :=
  dot_S2000x192_S192x128_S2000x128_1_0_0_1_n_n.rhsIdx_val_of_single rfl i q
theorem rhs_mmLin_1 (i : S2000x128.Idx) (q : dot_S2000x192_S192x128_S2000x128_1_0_0_1_n_n.contr.Idx) :
    (dot_S2000x192_S192x128_S2000x128_1_0_0_1_n_n.rhsIdx i q 1).val = (i 1).val := by
  unfold DotDims.rhsIdx
  rw [dif_neg (show ¬(1 : Fin S192x128.rank) ∈ dot_S2000x192_S192x128_S2000x128_1_0_0_1_n_n.rhsBatch by decide), dif_pos (show (1 : Fin S192x128.rank) ∈ dot_S2000x192_S192x128_S2000x128_1_0_0_1_n_n.rhsNonContracting by decide)]
  rfl

theorem mmLin_apply {φ₁ φ₂ : FTy} (l : FVec Ideal S2000x192 φ₁) (r : FVec Ideal S192x128 φ₂) (p : Fin 2000) (q : Fin 128) :
    matmul dot_S2000x192_S192x128_S2000x128_1_0_0_1_n_n none l r (constant (F := Ideal) S2000x128 .f32 0x00000000#32) (ix2 p q)
      = ∑ k : Fin 192, l (ix2 p k) * r (ix2 k q) :=
  Cert.LibMatmul.matmul_zero_apply _ rfl rfl lhs_mmLin_0 lhs_mmLin_1 rhs_mmLin_0 rhs_mmLin_1 l r p q

theorem lhs_mmIn_0 (i : S2000x384.Idx) (q : dot_S2000x64_S64x384_S2000x384_1_0_0_1_n_n.contr.Idx) :
    (dot_S2000x64_S64x384_S2000x384_1_0_0_1_n_n.lhsIdx i q 0).val = (i 0).val := by
  unfold DotDims.lhsIdx
  rw [dif_neg (show ¬(0 : Fin S2000x64.rank) ∈ dot_S2000x64_S64x384_S2000x384_1_0_0_1_n_n.lhsBatch by decide), dif_pos (show (0 : Fin S2000x64.rank) ∈ dot_S2000x64_S64x384_S2000x384_1_0_0_1_n_n.lhsNonContracting by decide)]
  rfl
theorem lhs_mmIn_1 (i : S2000x384.Idx) (q : dot_S2000x64_S64x384_S2000x384_1_0_0_1_n_n.contr.Idx) :
    (dot_S2000x64_S64x384_S2000x384_1_0_0_1_n_n.lhsIdx i q 1).val = (q ⟨0, by decide⟩).val :=
  dot_S2000x64_S64x384_S2000x384_1_0_0_1_n_n.lhsIdx_val_of_single rfl i q
theorem rhs_mmIn_0 (i : S2000x384.Idx) (q : dot_S2000x64_S64x384_S2000x384_1_0_0_1_n_n.contr.Idx) :
    (dot_S2000x64_S64x384_S2000x384_1_0_0_1_n_n.rhsIdx i q 0).val = (q ⟨0, by decide⟩).val :=
  dot_S2000x64_S64x384_S2000x384_1_0_0_1_n_n.rhsIdx_val_of_single rfl i q
theorem rhs_mmIn_1 (i : S2000x384.Idx) (q : dot_S2000x64_S64x384_S2000x384_1_0_0_1_n_n.contr.Idx) :
    (dot_S2000x64_S64x384_S2000x384_1_0_0_1_n_n.rhsIdx i q 1).val = (i 1).val := by
  unfold DotDims.rhsIdx
  rw [dif_neg (show ¬(1 : Fin S64x384.rank) ∈ dot_S2000x64_S64x384_S2000x384_1_0_0_1_n_n.rhsBatch by decide), dif_pos (show (1 : Fin S64x384.rank) ∈ dot_S2000x64_S64x384_S2000x384_1_0_0_1_n_n.rhsNonContracting by decide)]
  rfl

theorem mmIn_apply {φ₁ φ₂ : FTy} (l : FVec Ideal S2000x64 φ₁) (r : FVec Ideal S64x384 φ₂) (p : Fin 2000) (q : Fin 384) :
    matmul dot_S2000x64_S64x384_S2000x384_1_0_0_1_n_n none l r (constant (F := Ideal) S2000x384 .f32 0x00000000#32) (ix2 p q)
      = ∑ k : Fin 64, l (ix2 p k) * r (ix2 k q) :=
  Cert.LibMatmul.matmul_zero_apply _ rfl rfl lhs_mmIn_0 lhs_mmIn_1 rhs_mmIn_0 rhs_mmIn_1 l r p q

theorem lhs_mmHid_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_mmHid_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_mmHid_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_mmHid_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

theorem mmHid_apply {φ₁ φ₂ : FTy} (l : FVec Ideal S2000x128 φ₁) (r : FVec Ideal S128x384 φ₂) (p : Fin 2000) (q : Fin 384) :
    matmul dot_S2000x128_S128x384_S2000x384_1_0_0_1_n_n none l r (constant (F := Ideal) S2000x384 .f32 0x00000000#32) (ix2 p q)
      = ∑ k : Fin 128, l (ix2 p k) * r (ix2 k q) :=
  Cert.LibMatmul.matmul_zero_apply _ rfl rfl lhs_mmHid_0 lhs_mmHid_1 rhs_mmHid_0 rhs_mmHid_1 l r p q

theorem add_eq_add_of_eq {a a' b b' : EReal} (h1 : a = a') (h2 : b = b') : a + b = a' + b' := by rw [h1, h2]
theorem mul_eq_mul_of_eq {a a' b b' : EReal} (h1 : a = a') (h2 : b = b') : a * b = a' * b' := by rw [h1, h2]

theorem pay2_apply (a : Vec Ideal S1x2000x192 .f32) (lw : Vec Ideal S192x128 .f32) (lb : Vec Ideal S128 .f32)
    (p : Fin 2000) (q : Fin 128) :
    k2_pay2 a lw lb (ix2 p q) = (∑ c : Fin 192, a (ix3 (0 : Fin 1) p c) * lw (ix2 c q)) + lb (ix1 q) := by
  unfold k2_pay2
  refine (addf_apply _ _ _).trans ?_
  refine add_eq_add_of_eq ?_ ?_
  · refine (mmLin_apply _ _ p q).trans ?_
    refine Finset.sum_congr rfl fun c _ => ?_
    refine mul_eq_mul_of_eq ?_ ?_
    · exact (shapeCast_1ab_ab_apply a _ p c)
    · exact (congrFun (shapeCast_self lw _) _)
  · exact (broadcastTo_1b_ab_apply _ _ p q).trans (shapeCast_a_1a_apply lb _ 0 q)

theorem pay3_apply (x : Vec Ideal S1x2000x64 .f32) (wi : Vec Ideal S64x384 .f32) (bi : Vec Ideal S384 .f32)
    (p : Fin 2000) (g : Fin 384) :
    k2_pay3 x wi bi (ix2 p g) = (∑ d : Fin 64, x (ix3 (0 : Fin 1) p d) * wi (ix2 d g)) + bi (ix1 g) := by
  unfold k2_pay3
  refine (addf_apply _ _ _).trans ?_
  refine add_eq_add_of_eq ?_ ?_
  · refine (mmIn_apply _ _ p g).trans ?_
    refine Finset.sum_congr rfl fun d _ => ?_
    refine mul_eq_mul_of_eq ?_ ?_
    · exact (shapeCast_1ab_ab_apply x _ p d)
    · exact (congrFun (shapeCast_self wi _) _)
  · exact (broadcastTo_1b_ab_apply _ _ p g).trans (shapeCast_a_1a_apply bi _ 0 g)

theorem pay4_apply (a : Vec Ideal S1x2000x192 .f32) (lw : Vec Ideal S192x128 .f32) (wh : Vec Ideal S128x384 .f32)
    (lb : Vec Ideal S128 .f32) (bh : Vec Ideal S384 .f32) (p : Fin 2000) (g : Fin 384) :
    k2_pay4 a lw wh lb bh (ix2 p g) = (∑ q : Fin 128, k2_pay2 a lw lb (ix2 p q) * wh (ix2 q g)) + bh (ix1 g) := by
  unfold k2_pay4
  refine (addf_apply _ _ _).trans ?_
  refine add_eq_add_of_eq ?_ ?_
  · refine (mmHid_apply _ _ p g).trans ?_
    refine Finset.sum_congr rfl fun q _ => ?_
    refine mul_eq_mul_of_eq ?_ ?_
    · rfl
    · exact (congrFun (shapeCast_self wh _) _)
  · exact (broadcastTo_1b_ab_apply _ _ p g).trans (shapeCast_a_1a_apply bh _ 0 g)

theorem gate0_apply (X : FVec Ideal S2000x384 .f32) (p : Fin 2000) (k : Fin 128) :
    extractStridedSlice S2000x128 ![0, 0] X slices_S2000x384_o0_0_S2000x128 (ix2 p k) = X (ix2 p ⟨k.val, by omega⟩) :=
  slice2_axis1_apply 0 X slices_S2000x384_o0_0_S2000x128 p k ⟨k.val, by omega⟩ (Nat.zero_add _).symm
theorem gate1_apply (X : FVec Ideal S2000x384 .f32) (p : Fin 2000) (k : Fin 128) :
    extractStridedSlice S2000x128 ![0, 128] X slices_S2000x384_o0_128_S2000x128 (ix2 p k) = X (ix2 p ⟨k.val + 128, by omega⟩) :=
  slice2_axis1_apply 128 X slices_S2000x384_o0_128_S2000x128 p k ⟨k.val + 128, by omega⟩ (Nat.add_comm _ _)
theorem gate2_apply (X : FVec Ideal S2000x384 .f32) (p : Fin 2000) (k : Fin 128) :
    extractStridedSlice S2000x128 ![0, 256] X slices_S2000x384_o0_256_S2000x128 (ix2 p k) = X (ix2 p ⟨k.val + 256, by omega⟩) :=
  slice2_axis1_apply 256 X slices_S2000x384_o0_256_S2000x128 p k ⟨k.val + 256, by omega⟩ (Nat.add_comm _ _)

theorem pay1_apply (v19 v33 v36 v38 v39 : FVec Ideal S2000x128 .f32) (r : Fin 2000) (k : Fin 128) :
    k2_pay1 v19 v33 v36 v38 v39 (ix3 (0 : Fin 1) r k)
      = (Cert.Spec.one32 - Ideal.logistic (v39 (ix2 r k))) * Ideal.tanh (v33 (ix2 r k) + v38 (ix2 r k) * v36 (ix2 r k))
        + Ideal.logistic (v39 (ix2 r k)) * v19 (ix2 r k) := by
  unfold k2_pay1
  exact (shapeCast_ab_1ab_apply _ _ 0 r k).trans rfl

theorem pay5_apply (x : Vec Ideal S1x2000x64 .f32) (wi : Vec Ideal S64x384 .f32) (bi : Vec Ideal S384 .f32) (r : Fin 2000) (k : Fin 128) :
    k2_pay5 x wi bi (ix2 r k) = k2_pay3 x wi bi (ix2 r ⟨k.val + 256, by omega⟩) := by
  unfold k2_pay5
  exact gate2_apply _ r k

theorem pay6_apply (a : Vec Ideal S1x2000x192 .f32) (lw : Vec Ideal S192x128 .f32) (wh : Vec Ideal S128x384 .f32)
    (lb : Vec Ideal S128 .f32) (bh : Vec Ideal S384 .f32) (r : Fin 2000) (k : Fin 128) :
    k2_pay6 a lw wh lb bh (ix2 r k) = k2_pay4 a lw wh lb bh (ix2 r ⟨k.val + 256, by omega⟩) := by
  unfold k2_pay6
  exact gate2_apply _ r k

theorem pay7_apply (a : Vec Ideal S1x2000x192 .f32) (x : Vec Ideal S1x2000x64 .f32) (lw : Vec Ideal S192x128 .f32)
    (wi : Vec Ideal S64x384 .f32) (wh : Vec Ideal S128x384 .f32) (lb : Vec Ideal S128 .f32) (bi : Vec Ideal S384 .f32)
    (bh : Vec Ideal S384 .f32) (r : Fin 2000) (k : Fin 128) :
    k2_pay7 a x lw wi wh lb bi bh (ix2 r k)
      = Ideal.logistic (k2_pay3 x wi bi (ix2 r ⟨k.val, by omega⟩) + k2_pay4 a lw wh lb bh (ix2 r ⟨k.val, by omega⟩)) := by
  unfold k2_pay7
  exact congrArg Ideal.logistic (add_eq_add_of_eq (gate0_apply _ r k) (gate0_apply _ r k))

theorem pay8_apply (a : Vec Ideal S1x2000x192 .f32) (x : Vec Ideal S1x2000x64 .f32) (lw : Vec Ideal S192x128 .f32)
    (wi : Vec Ideal S64x384 .f32) (wh : Vec Ideal S128x384 .f32) (lb : Vec Ideal S128 .f32) (bi : Vec Ideal S384 .f32)
    (bh : Vec Ideal S384 .f32) (r : Fin 2000) (k : Fin 128) :
    k2_pay8 a x lw wi wh lb bi bh (ix2 r k)
      = k2_pay3 x wi bi (ix2 r ⟨k.val + 128, by omega⟩) + k2_pay4 a lw wh lb bh (ix2 r ⟨k.val + 128, by omega⟩) := by
  unfold k2_pay8
  exact add_eq_add_of_eq (gate1_apply _ r k) (gate1_apply _ r k)

section Stages
variable (a : Vec Ideal S1x2000x192 .f32) (x : Vec Ideal S1x2000x64 .f32) (lw : Vec Ideal S192x128 .f32) (lb : Vec Ideal S128 .f32)
  (wi : Vec Ideal S64x384 .f32) (wh : Vec Ideal S128x384 .f32) (bi : Vec Ideal S384 .f32) (bh : Vec Ideal S384 .f32) (r : Fin 2000)

theorem pay2_eq_convOut (q : Fin 128) :
    k2_pay2 a lw lb (ix2 r q)
      = Cert.Spec.convOut (fun cc : Fin 192 => a (ix3 (0 : Fin 1) r cc)) (fun i => lw (ix2 (i 1) (i 0))) lb q :=
  pay2_apply a lw lb r q

theorem pay3_eq_gateI (g : Fin 384) :
    k2_pay3 x wi bi (ix2 r g)
      = Cert.Spec.gateI (fun d : Fin 64 => x (ix3 (0 : Fin 1) r d)) (fun i => wi (ix2 (i 1) (i 0))) bi g :=
  pay3_apply x wi bi r g

theorem pay4_eq_gateH (g : Fin 384) :
    k2_pay4 a lw wh lb bh (ix2 r g)
      = Cert.Spec.gateH (Cert.Spec.convOut (fun cc : Fin 192 => a (ix3 (0 : Fin 1) r cc)) (fun i => lw (ix2 (i 1) (i 0))) lb)
          (fun i => wh (ix2 (i 1) (i 0))) bh g :=
  (pay4_apply a lw wh lb bh r g).trans
    (add_eq_add_of_eq (Finset.sum_congr rfl fun q _ => mul_eq_mul_of_eq (pay2_eq_convOut a lw lb r q) rfl) rfl)

theorem pay_eq_node (k : Fin 128) :
    k2_pay1 (k2_pay2 a lw lb) (k2_pay5 x wi bi) (k2_pay6 a lw wh lb bh) (k2_pay7 a x lw wi wh lb bi bh)
        (k2_pay8 a x lw wi wh lb bi bh) (ix3 (0 : Fin 1) r k)
      = Cert.Spec.node (fun cc : Fin 192 => a (ix3 (0 : Fin 1) r cc)) (fun d : Fin 64 => x (ix3 (0 : Fin 1) r d))
          (fun i => lw (ix2 (i 1) (i 0))) lb (fun i => wi (ix2 (i 1) (i 0))) (fun i => wh (ix2 (i 1) (i 0))) bi bh k := by
  refine (pay1_apply _ _ _ _ _ r k).trans ?_
  rw [pay8_apply, pay5_apply, pay6_apply, pay7_apply, pay2_eq_convOut]
  simp only [pay3_eq_gateI, pay4_eq_gateH]
  rfl

end Stages

end Cert.KernelIdeal.Hand

end
-- ==== Proof.KI.ValGru.lean ====
import proofs.«416083_j74431783240178_1_alg».proof.Proof.KI.Gru
import proofs.«416083_j74431783240178_1_alg».proof.Proof.KI.ValGruPay
import proofs.«416083_j74431783240178_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

theorem gruOut_eq {F : FTy → Type} [FloatOps F] (a : Vec F S1x2000x192 .f32) (x : Vec F S1x2000x64 .f32) (lw : Vec F S192x128 .f32)
    (lb : Vec F S128 .f32) (wi : Vec F S64x384 .f32) (wh : Vec F S128x384 .f32) (bi : Vec F S384 .f32) (bh : Vec F S384 .f32) :
    gruOut a x lw lb wi wh bi bh = gruPay a x lw lb wi wh bi bh := by
  unfold gruOut
  rw [View.canon_unit_zero zero3]
  simp only [View.ld_unit_zero (S := S1x2000x192) zero3, View.ld_unit_zero (S := S1x2000x64) zero3,
    View.ld_unit_zero (S := S192x128) zero2, View.ld_unit_zero (S := S128) zero1, View.ld_unit_zero (S := S64x384) zero2,
    View.ld_unit_zero (S := S128x384) zero2, View.ld_unit_zero (S := S384) zero1]

theorem idx_facts : ∀ t : Fin cfg2.N,
    (win2_0.index t (0 : Fin 3) = t.val / 5 ∧ win2_0.index t (1 : Fin 3) = t.val % 5 ∧ win2_0.index t (2 : Fin 3) = 0)
    ∧ (win2_1.index t (0 : Fin 3) = t.val / 5 ∧ win2_1.index t (1 : Fin 3) = t.val % 5 ∧ win2_1.index t (2 : Fin 3) = 0)
    ∧ (win2_8.index t (0 : Fin 3) = t.val / 5 ∧ win2_8.index t (1 : Fin 3) = t.val % 5 ∧ win2_8.index t (2 : Fin 3) = 0)
    ∧ (win2_2.index t (0 : Fin 2) = 0 ∧ win2_2.index t (1 : Fin 2) = 0)
    ∧ win2_3.index t (0 : Fin 1) = 0
    ∧ (win2_4.index t (0 : Fin 2) = 0 ∧ win2_4.index t (1 : Fin 2) = 0)
    ∧ (win2_5.index t (0 : Fin 2) = 0 ∧ win2_5.index t (1 : Fin 2) = 0)
    ∧ win2_6.index t (0 : Fin 1) = 0
    ∧ win2_7.index t (0 : Fin 1) = 0 :=
  (by decide +kernel : ∀ t : Fin grid2.N, _)

variable (V : (c : Dev nD) → (b : Ref sig .tc) → Buf (Elt Ideal) ((c : Thread nD τ).loc b))

theorem blk0_apply (c : Dev nD) (t : Fin cfg2.N) (r : Fin 2000) (cc : Fin 192) (b : Fin 4) (n : Fin 10000)
    (hb : b.val = t.val / 5) (hn : n.val = 2000 * (t.val % 5) + r.val) :
    blk2 V c 0 t (ix3 (0 : Fin 1) r cc) = V c main_v32 (ix3 b n cc) := by
  obtain ⟨⟨e0, e1, e2⟩, -⟩ := idx_facts t
  show V c main_v32 (((cfg2.win 0).blk t).view.emb (ix3 (0 : Fin 1) r cc)) = _
  refine congrArg (V c main_v32) (funext fun a => Fin.ext ?_)
  match a with
  | ⟨0, _⟩ => show win2_0.index t (0 : Fin 3) * 1 + 1 * 0 = b.val; omega
  | ⟨1, _⟩ => show win2_0.index t (1 : Fin 3) * 2000 + 1 * r.val = n.val; omega
  | ⟨2, _⟩ => show win2_0.index t (2 : Fin 3) * 192 + 1 * cc.val = cc.val; omega

theorem blk1_apply (c : Dev nD) (t : Fin cfg2.N) (r : Fin 2000) (d : Fin 64) (b : Fin 4) (n : Fin 10000)
    (hb : b.val = t.val / 5) (hn : n.val = 2000 * (t.val % 5) + r.val) :
    blk2 V c 1 t (ix3 (0 : Fin 1) r d) = V c main_arg0 (ix3 b n d) := by
  obtain ⟨-, ⟨e0, e1, e2⟩, -⟩ := idx_facts t
  show V c main_arg0 (((cfg2.win 1).blk t).view.emb (ix3 (0 : Fin 1) r d)) = _
  refine congrArg (V c main_arg0) (funext fun a => Fin.ext ?_)
  match a with
  | ⟨0, _⟩ => show win2_1.index t (0 : Fin 3) * 1 + 1 * 0 = b.val; omega
  | ⟨1, _⟩ => show win2_1.index t (1 : Fin 3) * 2000 + 1 * r.val = n.val; omega
  | ⟨2, _⟩ => show win2_1.index t (2 : Fin 3) * 64 + 1 * d.val = d.val; omega

theorem blk2_apply (c : Dev nD) (t : Fin cfg2.N) (p : Fin 192) (q : Fin 128) :
    blk2 V c 2 t (ix2 p q) = V c main_v33 (ix2 p q) := by
  obtain ⟨-, -, -, ⟨e0, e1⟩, -⟩ := idx_facts t
  show V c main_v33 (((cfg2.win 2).blk t).view.emb (ix2 p q)) = _
  refine congrArg (V c main_v33) (funext fun a => Fin.ext ?_)
  match a with
  | ⟨0, _⟩ => show win2_2.index t (0 : Fin 2) * 192 + 1 * p.val = p.val; omega
  | ⟨1, _⟩ => show win2_2.index t (1 : Fin 2) * 128 + 1 * q.val = q.val; omega
theorem blk3_apply (c : Dev nD) (t : Fin cfg2.N) (q : Fin 128) :
    blk2 V c 3 t (ix1 q) = V c main_arg4 (ix1 q) := by
  obtain ⟨-, -, -, -, e0, -⟩ := idx_facts t
  show V c main_arg4 (((cfg2.win 3).blk t).view.emb (ix1 q)) = _
  refine congrArg (V c main_arg4) (funext fun a => Fin.ext ?_)
  match a with
  | ⟨0, _⟩ => show win2_3.index t (0 : Fin 1) * 128 + 1 * q.val = q.val; omega
theorem blk4_apply (c : Dev nD) (t : Fin cfg2.N) (p : Fin 64) (q : Fin 384) :
    blk2 V c 4 t (ix2 p q) = V c main_v34 (ix2 p q) := by
  obtain ⟨-, -, -, -, -, ⟨e0, e1⟩, -⟩ := idx_facts t
  show V c main_v34 (((cfg2.win 4).blk t).view.emb (ix2 p q)) = _
  refine congrArg (V c main_v34) (funext fun a => Fin.ext ?_)
  match a with
  | ⟨0, _⟩ => show win2_4.index t (0 : Fin 2) * 64 + 1 * p.val = p.val; omega
  | ⟨1, _⟩ => show win2_4.index t (1 : Fin 2) * 384 + 1 * q.val = q.val; omega
theorem blk5_apply (c : Dev nD) (t : Fin cfg2.N) (p : Fin 128) (q : Fin 384) :
    blk2 V c 5 t (ix2 p q) = V c main_v35 (ix2 p q) := by
  obtain ⟨-, -, -, -, -, -, ⟨e0, e1⟩, -⟩ := idx_facts t
  show V c main_v35 (((cfg2.win 5).blk t).view.emb (ix2 p q)) = _
  refine congrArg (V c main_v35) (funext fun a => Fin.ext ?_)
  match a with
  | ⟨0, _⟩ => show win2_5.index t (0 : Fin 2) * 128 + 1 * p.val = p.val; omega
  | ⟨1, _⟩ => show win2_5.index t (1 : Fin 2) * 384 + 1 * q.val = q.val; omega
theorem blk6_apply (c : Dev nD) (t : Fin cfg2.N) (q : Fin 384) :
    blk2 V c 6 t (ix1 q) = V c main_arg7 (ix1 q) := by
  obtain ⟨-, -, -, -, -, -, -, e0, -⟩ := idx_facts t
  show V c main_arg7 (((cfg2.win 6).blk t).view.emb (ix1 q)) = _
  refine congrArg (V c main_arg7) (funext fun a => Fin.ext ?_)
  match a with
  | ⟨0, _⟩ => show win2_6.index t (0 : Fin 1) * 384 + 1 * q.val = q.val; omega
theorem blk7_apply (c : Dev nD) (t : Fin cfg2.N) (q : Fin 384) :
    blk2 V c 7 t (ix1 q) = V c main_arg8 (ix1 q) := by
  obtain ⟨-, -, -, -, -, -, -, -, e0⟩ := idx_facts t
  show V c main_arg8 (((cfg2.win 7).blk t).view.emb (ix1 q)) = _
  refine congrArg (V c main_arg8) (funext fun a => Fin.ext ?_)
  match a with
  | ⟨0, _⟩ => show win2_7.index t (0 : Fin 1) * 384 + 1 * q.val = q.val; omega

def nodeVal (c : Dev nD) (b : Fin 4) (n : Fin 10000) (k : Fin 128) : EReal :=
  Cert.Spec.node (fun cc : Fin 192 => V c main_v32 (ix3 b n cc)) (fun d : Fin 64 => V c main_arg0 (ix3 b n d))
    (fun i => V c main_v33 (ix2 (i 1) (i 0))) (V c main_arg4)
    (fun i => V c main_v34 (ix2 (i 1) (i 0))) (fun i => V c main_v35 (ix2 (i 1) (i 0)))
    (V c main_arg7) (V c main_arg8) k

def nodeArr (c : Dev nD) : S4x10000x128.Idx → EReal := fun i => nodeVal V c (i 0) (i 1) (i 2)

theorem nodeArr_apply (c : Dev nD) (i : S4x10000x128.Idx) (b : Fin 4) (n : Fin 10000) (k : Fin 128)
    (hb : (i 0).val = b.val) (hn : (i 1).val = n.val) (hk : (i 2).val = k.val) : nodeArr V c i = nodeVal V c b n k := by
  obtain rfl : i = ix3 b n k := funext fun a => Fin.ext (by
    match a with
    | ⟨0, _⟩ => exact hb
    | ⟨1, _⟩ => exact hn
    | ⟨2, _⟩ => exact hk)
  rfl

theorem node_congr {y y' : Fin 192 → EReal} {xr xr' : Fin 64 → EReal} {lw lw' : Cert.Spec.SLw.Idx → EReal}
    {lb lb' : Cert.Spec.SLb.Idx → EReal} {wi wi' : Cert.Spec.SWi.Idx → EReal} {wh wh' : Cert.Spec.SWh.Idx → EReal}
    {bi bi' bh bh' : Cert.Spec.SB.Idx → EReal} (k : Fin 128)
    (h1 : ∀ cc, y cc = y' cc) (h2 : ∀ d, xr d = xr' d) (h3 : ∀ i, lw i = lw' i) (h4 : ∀ i, lb i = lb' i)
    (h5 : ∀ i, wi i = wi' i) (h6 : ∀ i, wh i = wh' i) (h7 : ∀ i, bi i = bi' i) (h8 : ∀ i, bh i = bh' i) :
    Cert.Spec.node y xr lw lb wi wh bi bh k = Cert.Spec.node y' xr' lw' lb' wi' wh' bi' bh' k := by
  obtain rfl : y = y' := funext h1
  obtain rfl : xr = xr' := funext h2
  obtain rfl : lw = lw' := funext h3
  obtain rfl : lb = lb' := funext h4
  obtain rfl : wi = wi' := funext h5
  obtain rfl : wh = wh' := funext h6
  obtain rfl : bi = bi' := funext h7
  obtain rfl : bh = bh' := funext h8
  rfl

theorem gruPay_apply (a : Vec Ideal S1x2000x192 .f32) (x : Vec Ideal S1x2000x64 .f32) (lw : Vec Ideal S192x128 .f32)
    (lb : Vec Ideal S128 .f32) (wi : Vec Ideal S64x384 .f32) (wh : Vec Ideal S128x384 .f32) (bi : Vec Ideal S384 .f32)
    (bh : Vec Ideal S384 .f32) (r : Fin 2000) (k : Fin 128) :
    gruPay a x lw lb wi wh bi bh (ix3 (0 : Fin 1) r k)
      = Cert.Spec.node (fun cc : Fin 192 => a (ix3 (0 : Fin 1) r cc)) (fun d : Fin 64 => x (ix3 (0 : Fin 1) r d))
          (fun i => lw (ix2 (i 1) (i 0))) lb (fun i => wi (ix2 (i 1) (i 0))) (fun i => wh (ix2 (i 1) (i 0))) bi bh k := by
  unfold gruPay
  exact pay_eq_node a x lw lb wi wh bi bh r k

theorem flushed_eq (c : Dev nD) (t : Fin cfg2.N) :
    (dat2 (F := Ideal) V c).flushed 8 t = ((cfg2.win 8).blk t).view.read (Elt Ideal) (nodeArr V c) := by
  show (cfg2.win 8).cut (grid2.coords t) ((dat2 (F := Ideal) V c).after 8 t) = _
  rw [after2_8, gruOut_eq]
  funext j
  have hj0 : (j 0).val < 1 := (j 0).isLt
  have hj1 : (j 1).val < 2000 := (j 1).isLt
  have hj2 : (j 2).val < 128 := (j 2).isLt
  have ht : t.val < 20 := by have h := t.isLt; have hN : cfg2.N = 20 := N_2; omega
  obtain ⟨-, -, ⟨e0, e1, e2⟩, -⟩ := idx_facts t
  have hx : (cfg2.win 8).xinj (grid2.coords t) j = ix3 (0 : Fin 1) ⟨(j 1).val, hj1⟩ ⟨(j 2).val, hj2⟩ :=
    funext fun a => Fin.ext (by
      match a with
      | ⟨0, _⟩ => show (j 0).val = 0; omega
      | ⟨1, _⟩ => rfl
      | ⟨2, _⟩ => rfl)
  show gruPay (blk2 V c 0 t) (blk2 V c 1 t) (blk2 V c 2 t) (blk2 V c 3 t) (blk2 V c 4 t) (blk2 V c 5 t) (blk2 V c 6 t) (blk2 V c 7 t)
      ((cfg2.win 8).xinj (grid2.coords t) j) = nodeArr V c (((cfg2.win 8).blk t).view.emb j)
  refine (congrArg (gruPay (blk2 V c 0 t) (blk2 V c 1 t) (blk2 V c 2 t) (blk2 V c 3 t) (blk2 V c 4 t) (blk2 V c 5 t) (blk2 V c 6 t) (blk2 V c 7 t)) hx).trans ?_
  refine (gruPay_apply (blk2 V c 0 t) (blk2 V c 1 t) (blk2 V c 2 t) (blk2 V c 3 t) (blk2 V c 4 t) (blk2 V c 5 t) (blk2 V c 6 t) (blk2 V c 7 t)
    ⟨(j 1).val, hj1⟩ ⟨(j 2).val, hj2⟩).trans ?_
  refine Eq.trans ?_ (nodeArr_apply V c (((cfg2.win 8).blk t).view.emb j) ⟨t.val / 5, by omega⟩ ⟨2000 * (t.val % 5) + (j 1).val, by omega⟩ ⟨(j 2).val, hj2⟩
    (by show win2_8.index t (0 : Fin 3) * 1 + 1 * (j 0).val = t.val / 5; omega)
    (by show win2_8.index t (1 : Fin 3) * 2000 + 1 * (j 1).val = 2000 * (t.val % 5) + (j 1).val; omega)
    (by show win2_8.index t (2 : Fin 3) * 128 + 1 * (j 2).val = (j 2).val; omega)).symm
  unfold nodeVal
  exact node_congr ⟨(j 2).val, hj2⟩
    (fun cc => blk0_apply V c t ⟨(j 1).val, hj1⟩ cc ⟨t.val / 5, by omega⟩ ⟨2000 * (t.val % 5) + (j 1).val, by omega⟩ rfl rfl)
    (fun d => blk1_apply V c t ⟨(j 1).val, hj1⟩ d ⟨t.val / 5, by omega⟩ ⟨2000 * (t.val % 5) + (j 1).val, by omega⟩ rfl rfl)
    (fun i => blk2_apply V c t (i 1) (i 0))
    (fun i => by obtain ⟨q, rfl⟩ : ∃ q : Fin 128, i = ix1 q := ⟨i 0, eq_ix1 i⟩; exact blk3_apply V c t q)
    (fun i => blk4_apply V c t (i 1) (i 0))
    (fun i => blk5_apply V c t (i 1) (i 0))
    (fun i => by obtain ⟨q, rfl⟩ : ∃ q : Fin 384, i = ix1 q := ⟨i 0, eq_ix1 i⟩; exact blk6_apply V c t q)
    (fun i => by obtain ⟨q, rfl⟩ : ∃ q : Fin 384, i = ix1 q := ⟨i 0, eq_ix1 i⟩; exact blk7_apply V c t q)

theorem mem_blk8 (t : Fin cfg2.N) (i : S4x10000x128.Idx) :
    i ∈ ((cfg2.win 8).blk t).view.set ↔ ∀ a : Fin 3, win2_8.index t a * S1x2000x128.size a ≤ (i a).val
      ∧ (i a).val < win2_8.index t a * S1x2000x128.size a + S1x2000x128.size a := by
  show i ∈ ((View.whole main_v36).slice (win2_8.rect t)).set ↔ _
  rw [View.set_slice_whole, Rect.mem_set_unit]
  exact Iff.rfl

theorem covered (i : S4x10000x128.Idx) :
    ∃ t : Fin cfg2.N, (cfg2.win 8).flush t = true ∧ i ∈ ((cfg2.win 8).blk t).view.set := by
  have hi0 : (i 0).val < 4 := (i 0).isLt
  have hi1 : (i 1).val < 10000 := (i 1).isLt
  have hi2 : (i 2).val < 128 := (i 2).isLt
  have hN : cfg2.N = 20 := N_2
  refine ⟨⟨5 * (i 0).val + (i 1).val / 2000, by rw [hN]; omega⟩, flush2_8 _, ?_⟩
  rw [mem_blk8]
  obtain ⟨-, -, ⟨e0, e1, e2⟩, -⟩ := idx_facts ⟨5 * (i 0).val + (i 1).val / 2000, by rw [hN]; omega⟩
  have hv : (⟨5 * (i 0).val + (i 1).val / 2000, by rw [hN]; omega⟩ : Fin cfg2.N).val = 5 * (i 0).val + (i 1).val / 2000 := rfl
  rw [hv] at e0 e1
  intro a
  match a with
  | ⟨0, _⟩ =>
    show win2_8.index _ (0 : Fin 3) * 1 ≤ (i 0).val ∧ (i 0).val < win2_8.index _ (0 : Fin 3) * 1 + 1
    rw [e0]; omega
  | ⟨1, _⟩ =>
    show win2_8.index _ (1 : Fin 3) * 2000 ≤ (i 1).val ∧ (i 1).val < win2_8.index _ (1 : Fin 3) * 2000 + 2000
    rw [e1]; omega
  | ⟨2, _⟩ =>
    show win2_8.index _ (2 : Fin 3) * 128 ≤ (i 2).val ∧ (i 2).val < win2_8.index _ (2 : Fin 3) * 128 + 128
    rw [e2]; omega

theorem arr2_final (c : Dev nD) (b : Fin 4) (n : Fin 10000) (k : Fin 128) :
    (dat2 (F := Ideal) V c).arrAt 8 cfg2.N (ix3 b n k)
      = Cert.Spec.node (fun cc : Fin 192 => V c main_v32 (ix3 b n cc)) (fun d : Fin 64 => V c main_arg0 (ix3 b n d))
          (fun i => V c main_v33 (ix2 (i 1) (i 0))) (V c main_arg4)
          (fun i => V c main_v34 (ix2 (i 1) (i 0))) (fun i => V c main_v35 (ix2 (i 1) (i 0)))
          (V c main_arg7) (V c main_arg8) k :=
  congrFun ((dat2 (F := Ideal) V c).arrAt_eq_of_cover 8 (nodeArr V c) (fun t _ => flushed_eq V c t) covered) (ix3 b n k)

end Cert.KernelIdeal.Hand

end
-- ==== Proof.KI.ValHost.lean ====
import proofs.«416083_j74431783240178_1_alg».proof.Proof.KI.Run
import Idealize.ShloMosaic.Lib.StableHlo.Run
import proofs.«416083_j74431783240178_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

namespace ValHost

def endVec (o : Nat) (hs : S2x160000.Slices ![o, 0] S1x160000) (E : IVec S2x160000 32) : IVec S170000 32 :=
  concatenate S170000 0 [⟨S160000, shapeCast S160000 (extractStridedSlice S1x160000 ![o, 0] E hs) shapeCasts_S1x160000_S160000⟩,
    ⟨S10000, iotaInDim S10000 32 0⟩] concatenates_S160000_S10000_S170000_d0

theorem endVec_toNat (o : Nat) (ho : o < 2) (hs : S2x160000.Slices ![o, 0] S1x160000) (E : IVec S2x160000 32) (p : Fin 170000) :
    (endVec o hs E (ix1 p)).toNat = Cert.Spec.endpoint E ⟨o, ho⟩ p := by
  unfold endVec Cert.Spec.endpoint
  by_cases h : p.val < 160000
  · rw [dif_pos h]
    refine congrArg BitVec.toNat ?_
    refine (concatenate_pair_apply_left (0 : Fin S170000.rank) _ _ concatenates_S160000_S10000_S170000_d0 (ix1 p) rfl
      (ix1 (⟨p.val, h⟩ : Fin 160000)) (fun b => match b with | ⟨0, _⟩ => rfl)).trans ?_
    refine (shapeCast_apply _ shapeCasts_S1x160000_S160000 (ix1 (⟨p.val, h⟩ : Fin 160000)) (ix2 (0 : Fin 1) (⟨p.val, h⟩ : Fin 160000)) (by
      rw [Shape.rowMajor_val_two, Shape.rowMajor_val_one]
      show 0 * 160000 + p.val = p.val
      omega)).trans ?_
    exact extractStridedSlice_apply ![o, 0] E hs (ix2 (0 : Fin 1) (⟨p.val, h⟩ : Fin 160000)) (ix2 (⟨o, ho⟩ : Fin 2) (⟨p.val, h⟩ : Fin 160000))
      (fun a => match a with
        | ⟨0, _⟩ => by show o = o + 0; omega
        | ⟨1, _⟩ => by show p.val = 0 + p.val; omega)
  · rw [dif_neg h]
    have hp := p.isLt
    have e : concatenate S170000 0 [⟨S160000, shapeCast S160000 (extractStridedSlice S1x160000 ![o, 0] E hs) shapeCasts_S1x160000_S160000⟩,
        ⟨S10000, iotaInDim S10000 32 0⟩] concatenates_S160000_S10000_S170000_d0 (ix1 p)
        = iotaInDim S10000 32 0 (ix1 (⟨p.val - 160000, by omega⟩ : Fin 10000)) :=
      concatenate_pair_apply_right (0 : Fin S170000.rank) _ _ concatenates_S160000_S10000_S170000_d0 (ix1 p) rfl rfl
        (ix1 (⟨p.val - 160000, by omega⟩ : Fin 10000)) (fun b => match b with | ⟨0, _⟩ => fun hb => absurd rfl hb)
        (by show p.val - 160000 + 160000 = p.val; omega)
    rw [e]
    show (BitVec.ofNat 32 (p.val - 160000)).toNat = _
    rw [BitVec.toNat_ofNat]
    exact Nat.mod_eq_of_lt (by omega)

def wrap (v : IVec S170000 32) : IVec S170000 32 :=
  select (cmpi .slt v (broadcastInDim S170000 ![] bcast_S_S170000 (constantI S_ 32 0#32)))
    (addi v (broadcastInDim S170000 ![] bcast_S_S170000 (constantI S_ 32 10240#32))) v

theorem wrap_apply (v : IVec S170000 32) (i : S170000.Idx) (h : (v i).toNat < 2 ^ 31) : wrap v i = v i := by
  have e0 : broadcastInDim S170000 ![] bcast_S_S170000 (constantI S_ 32 0#32) i = 0#32 :=
    broadcastInDim_apply _ bcast_S_S170000 (constantI S_ 32 0#32) i ix0 (fun a => a.elim0)
  show Scalar.select (IntOp.cmpi .slt (v i) (broadcastInDim S170000 ![] bcast_S_S170000 (constantI S_ 32 0#32) i)) _ _ = v i
  rw [e0]
  have hc : IntOp.cmpi .slt (v i) 0#32 = 0#1 :=
    eq_zero_of_ne_one fun hc => Nat.not_lt_zero _ ((StableHlo.Predicate.slt_iff_toNat h (by decide)).mp hc)
  rw [hc, select_zero]

def idxPairs (dst src : IVec S170000 32) : IVec S170000x2 32 :=
  concatenate S170000x2 1 [⟨S170000x1, broadcastInDim S170000x1 ![0] bcast_S170000_S170000x1_0 dst⟩,
    ⟨S170000x1, broadcastInDim S170000x1 ![0] bcast_S170000_S170000x1_0 src⟩] concatenates_S170000x1_S170000x1_S170000x2_d1

theorem col_apply (v : IVec S170000 32) (p : Fin 170000) :
    broadcastInDim S170000x1 ![0] bcast_S170000_S170000x1_0 v (ix2 p (0 : Fin 1)) = v (ix1 p) :=
  broadcastInDim_apply _ bcast_S170000_S170000x1_0 v (ix2 p (0 : Fin 1)) (ix1 p) (fun a => match a with
    | ⟨0, _⟩ => by show p.val = if (170000 : Nat) = 1 then 0 else p.val; rw [if_neg (by decide)])

theorem idxPairs_col0 (dst src : IVec S170000 32) (p : Fin 170000) : idxPairs dst src (ix2 p (0 : Fin 2)) = dst (ix1 p) := by
  unfold idxPairs
  refine (concatenate_pair_apply_left (1 : Fin S170000x2.rank) _ _ concatenates_S170000x1_S170000x1_S170000x2_d1 (ix2 p (0 : Fin 2)) rfl
    (ix2 p (0 : Fin 1)) (fun b => match b with | ⟨0, _⟩ => rfl | ⟨1, _⟩ => rfl)).trans ?_
  exact col_apply dst p

theorem idxPairs_col1 (dst src : IVec S170000 32) (p : Fin 170000) : idxPairs dst src (ix2 p (1 : Fin 2)) = src (ix1 p) := by
  unfold idxPairs
  refine (concatenate_pair_apply_right (1 : Fin S170000x2.rank) _ _ concatenates_S170000x1_S170000x1_S170000x2_d1 (ix2 p (1 : Fin 2)) rfl rfl
    (ix2 p (0 : Fin 1)) (fun b => match b with | ⟨0, _⟩ => fun _ => rfl | ⟨1, _⟩ => fun hb => absurd rfl hb)
    (by show 0 + 1 = 1; rfl)).trans ?_
  exact col_apply src p

def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ p : Fin n, f (ix1 p) :=
  (Equiv.sum_comp (idxEquiv1 (n := n)).symm f).symm

abbrev scat : ScatterDims S10240x10240 S170000x2 S170000 := scatter_S10240x10240_S170000x2_S170000_n_01_01_1

theorem scat_start0 (idx : IVec S170000x2 32) (p : Fin 170000) :
    scat.start (ix1 p) idx (0 : Fin S10240x10240.rank) = (idx (ix2 p (0 : Fin 2))).toInt := by
  unfold ScatterDims.start
  rw [dif_pos (show (0 : Fin S10240x10240.rank) ∈ scat.scatterDimsToOperandDims by decide)]
  refine congrArg (fun i => (idx i).toInt) (funext fun b => Fin.ext ?_)
  match b with
  | ⟨0, _⟩ => rfl
  | ⟨1, _⟩ => rfl

theorem scat_start1 (idx : IVec S170000x2 32) (p : Fin 170000) :
    scat.start (ix1 p) idx (1 : Fin S10240x10240.rank) = (idx (ix2 p (1 : Fin 2))).toInt := by
  unfold ScatterDims.start
  rw [dif_pos (show (1 : Fin S10240x10240.rank) ∈ scat.scatterDimsToOperandDims by decide)]
  refine congrArg (fun i => (idx i).toInt) (funext fun b => Fin.ext ?_)
  match b with
  | ⟨0, _⟩ => rfl
  | ⟨1, _⟩ => rfl

theorem scat_window (j : S170000.Idx) (a : Fin S10240x10240.rank) : scat.window j a = 0 := by
  unfold ScatterDims.window
  have hk : scat.sKept = [] := by decide
  rw [dif_neg (by rw [hk]; exact List.not_mem_nil)]

theorem scat_resultIdx_iff (idx : IVec S170000x2 32) (p : Fin 170000) (n r : Fin 10240) :
    scat.resultIdx? (ix1 p) idx = some (ix2 n r)
      ↔ (idx (ix2 p (0 : Fin 2))).toInt = (n.val : ℤ) ∧ (idx (ix2 p (1 : Fin 2))).toInt = (r.val : ℤ) := by
  have hn := n.isLt
  have hr := r.isLt
  unfold ScatterDims.resultIdx?
  constructor
  · intro H
    by_cases h : ∀ a, 0 ≤ scat.start (ix1 p) idx a + scat.window (ix1 p) a ∧ scat.start (ix1 p) idx a + scat.window (ix1 p) a < S10240x10240.size a
    · rw [dif_pos h] at H
      have H' := Option.some.inj H
      have h0 := congrArg (fun i : S10240x10240.Idx => (i 0).val) H'
      have h1 := congrArg (fun i : S10240x10240.Idx => (i 1).val) H'
      have g0 := (h 0).1
      have g1 := (h 1).1
      rw [scat_window, scat_start0] at g0
      rw [scat_window, scat_start1] at g1
      change (scat.start (ix1 p) idx 0 + scat.window (ix1 p) 0).toNat = n.val at h0
      change (scat.start (ix1 p) idx 1 + scat.window (ix1 p) 1).toNat = r.val at h1
      rw [scat_window, scat_start0] at h0
      rw [scat_window, scat_start1] at h1
      omega
    · rw [dif_neg h] at H
      exact absurd H (by simp)
  · rintro ⟨e0, e1⟩
    have h : ∀ a, 0 ≤ scat.start (ix1 p) idx a + scat.window (ix1 p) a ∧ scat.start (ix1 p) idx a + scat.window (ix1 p) a < S10240x10240.size a := by
      intro a
      match a with
      | ⟨0, _⟩ =>
        show 0 ≤ scat.start (ix1 p) idx 0 + scat.window (ix1 p) 0 ∧ scat.start (ix1 p) idx 0 + scat.window (ix1 p) 0 < ((10240 : ℕ) : ℤ)
        rw [scat_window, scat_start0, e0]; omega
      | ⟨1, _⟩ =>
        show 0 ≤ scat.start (ix1 p) idx 1 + scat.window (ix1 p) 1 ∧ scat.start (ix1 p) idx 1 + scat.window (ix1 p) 1 < ((10240 : ℕ) : ℤ)
        rw [scat_window, scat_start1, e1]; omega
    rw [dif_pos h]
    refine congrArg some (funext fun a => Fin.ext ?_)
    match a with
    | ⟨0, _⟩ =>
      show (scat.start (ix1 p) idx 0 + scat.window (ix1 p) 0).toNat = n.val
      rw [scat_window, scat_start0, e0]; omega
    | ⟨1, _⟩ =>
      show (scat.start (ix1 p) idx 1 + scat.window (ix1 p) 1).toNat = r.val
      rw [scat_window, scat_start1, e1]; omega

def adjOf (E : IVec S2x160000 32) : FVec Ideal S10240x10240 .bf16 :=
  truncf .bf16 (Host.scatterAdd (F := Ideal) scatter_S10240x10240_S170000x2_S170000_n_01_01_1
    (broadcastInDim S10240x10240 ![] bcast_S_S10240x10240 (constant (F := Ideal) S_ .f32 0x00000000#32))
    (idxPairs (wrap (endVec 1 slices_S2x160000_S1x160000_1_0 E)) (wrap (endVec 0 slices_S2x160000_S1x160000_0_0 E)))
    (broadcastInDim S170000 ![] bcast_S_S170000 (constant (F := Ideal) S_ .f32 0x3F800000#32))) bitsLt_bf16_f32

theorem pair_iff (E : IVec S2x160000 32) (hE : Cert.Spec.InRange E) (p : Fin 170000) (n r : Fin 10240) :
    scat.resultIdx? (ix1 p) (idxPairs (wrap (endVec 1 slices_S2x160000_S1x160000_1_0 E)) (wrap (endVec 0 slices_S2x160000_S1x160000_0_0 E))) = some (ix2 n r)
      ↔ Cert.Spec.endpoint E 1 p = n.val ∧ Cert.Spec.endpoint E 0 p = r.val := by
  have h1 : (endVec 1 slices_S2x160000_S1x160000_1_0 E (ix1 p)).toNat = Cert.Spec.endpoint E 1 p := endVec_toNat 1 (by decide) _ E p
  have h0 : (endVec 0 slices_S2x160000_S1x160000_0_0 E (ix1 p)).toNat = Cert.Spec.endpoint E 0 p := endVec_toNat 0 (by decide) _ E p
  have l1 := Cert.Spec.endpoint_lt hE 1 p
  have l0 := Cert.Spec.endpoint_lt hE 0 p
  rw [scat_resultIdx_iff, idxPairs_col0, idxPairs_col1, wrap_apply _ _ (by rw [h1]; omega), wrap_apply _ _ (by rw [h0]; omega),
    StableHlo.Predicate.toInt_eq_toNat_of_lt (by rw [h1]; omega), StableHlo.Predicate.toInt_eq_toNat_of_lt (by rw [h0]; omega), h1, h0]
  omega

theorem adjOf_apply (E : IVec S2x160000 32) (hE : Cert.Spec.InRange E) (n r : Fin 10240) :
    adjOf E (ix2 n r) = Cert.Spec.adj E n.val r.val := by
  classical
  have hz : broadcastInDim S10240x10240 ![] bcast_S_S10240x10240 (constant (F := Ideal) S_ .f32 0x00000000#32) (ix2 n r) = (0 : EReal) :=
    (broadcastInDim_apply _ bcast_S_S10240x10240 (constant (F := Ideal) S_ .f32 0x00000000#32) (ix2 n r) ix0 (fun a => a.elim0)).trans Ideal.ofBits_zero_f32
  have ho : ∀ j : S170000.Idx, broadcastInDim S170000 ![] bcast_S_S170000 (constant (F := Ideal) S_ .f32 0x3F800000#32) j = (1 : EReal) := fun j =>
    (broadcastInDim_apply _ bcast_S_S170000 (constant (F := Ideal) S_ .f32 0x3F800000#32) j ix0 (fun a => a.elim0)).trans Cert.Spec.one32_eq
  unfold adjOf
  rw [truncf_apply]
  unfold Host.scatterAdd
  rw [Ideal.hostScatterAdd_def]
  unfold Ideal.hostScatterAdd
  dsimp only
  rw [hz, zero_add, Finset.sum_congr rfl (fun j _ => ho j), Finset.sum_filter, sum_idx1]
  unfold Cert.Spec.adj
  exact Finset.sum_congr rfl fun p _ => if_congr (pair_iff E hE p n r) rfl rfl

theorem W4_arg (c : Dev nD) (b : Ref sig .tc) (h1 : ∀ w, Pipeline.arrRef spec1 w ≠ b) (h0 : ∀ w, Pipeline.arrRef spec0 w ≠ b)
    (hA : b ∉ hostOps0_1_W) (hB : b ∉ hostOps0_W) :
    W4 m ρ c (Proc.devRef .tc b) = m ((c.tc : Thread nD τ).loc b) := by
  rw [W4_of_ne m ρ c b h1, W3_of_ne m ρ c b h0]
  show StableHlo.after hostOps0_1 _ (Proc.devRef .tc b) = _
  rw [StableHlo.after_of_writes_sub hostOps0_1 _ hostOps0_1_writes hA]
  show StableHlo.after hostOps0 _ (Proc.devRef .tc b) = _
  rw [StableHlo.after_of_writes_sub hostOps0 _ hostOps0_writes hB]

set_option maxHeartbeats 1000000 in
theorem v26_eq (c : Dev nD) : W1 m ρ c (Proc.devRef .tc main_v26)
    = shapeCast S10000x768 (transpose S10000x4x192 [1, 0, 2]
        (concatenate S4x10000x192 2 [⟨S4x10000x64, m ((c.tc : Thread nD τ).loc main_arg0)⟩, ⟨S4x10000x128, m ((c.tc : Thread nD τ).loc main_arg1)⟩]
          concatenates_S4x10000x64_S4x10000x128_S4x10000x192_d2)
        transposes_S4x10000x192_S10000x4x192_1_0_2) shapeCasts_S10000x4x192_S10000x768 := by
  show StableHlo.after hostOps0 _ (Proc.devRef .tc main_v26) = _
  after_results_simp
  rfl

set_option maxHeartbeats 1000000 in
theorem c4_eq (c : Dev nD) : W1 m ρ c (Proc.devRef .tc main_c_4) = constantI S_ 32 0#32 := by
  show StableHlo.after hostOps0 _ (Proc.devRef .tc main_c_4) = _
  after_results_simp

theorem v27_eq (c : Dev nD) : V2 m ρ c main_v27
    = pad S10240x768 ![0, 0] ![240, 0] ![0, 0] (W1 m ρ c (Proc.devRef .tc main_v26))
        (sitofp (F := Ideal) .f32 (W1 m ρ c (Proc.devRef .tc main_c_4))) pads_S10000x768_S10240x768_02400_000 h_S_ := by
  show StableHlo.after hostOps0_1 (W1 m ρ c) (Proc.devRef .tc main_v27) = _
  generalize W1 m ρ c = W
  after_results
  rfl

set_option maxHeartbeats 2000000 in
theorem v23_eq (c : Dev nD) : V2 m ρ c main_v23 = adjOf (m ((c.tc : Thread nD τ).loc main_arg2)) := by
  show StableHlo.after hostOps0_1 (W1 m ρ c) (Proc.devRef .tc main_v23) = _
  rw [StableHlo.after_of_writes_sub hostOps0_1 _ hostOps0_1_writes (by decide)]
  show StableHlo.after hostOps0 _ (Proc.devRef .tc main_v23) = _
  after_results_simp
  unfold adjOf idxPairs wrap endVec
  rfl

end ValHost

open ValHost

theorem adj_apply (c : Dev nD) (hE : Cert.Spec.InRange (m ((c.tc : Thread nD τ).loc main_arg2))) (n r : Fin 10240) :
    V2 m ρ c main_v23 (ix2 n r) = Cert.Spec.adj (m ((c.tc : Thread nD τ).loc main_arg2)) n.val r.val := by
  rw [v23_eq]
  exact adjOf_apply _ hE n r

theorem feat_apply (c : Dev nD) (r : Fin 10240) (b : Fin 4) (f : Fin 192) :
    V2 m ρ c main_v27 (ix2 r (⟨b.val * 192 + f.val, by have := b.isLt; have := f.isLt; omega⟩ : Fin 768))
      = Cert.Spec.feat0 (m ((c.tc : Thread nD τ).loc main_arg0)) (m ((c.tc : Thread nD τ).loc main_arg1)) b r.val f := by
  rw [v27_eq, v26_eq, c4_eq]
  generalize m ((c.tc : Thread nD τ).loc main_arg0) = x
  generalize m ((c.tc : Thread nD τ).loc main_arg1) = h
  have hb := b.isLt
  have hf' := f.isLt
  unfold Cert.Spec.feat0
  by_cases hn : r.val < 10000
  · rw [dif_pos hn]
    refine (pad_apply_of_inside ![0, 0] ![240, 0] ![0, 0] _ _ pads_S10000x768_S10240x768_02400_000 h_S_
      (ix2 r (⟨b.val * 192 + f.val, by omega⟩ : Fin 768)) (ix2 (⟨r.val, hn⟩ : Fin 10000) (⟨b.val * 192 + f.val, by omega⟩ : Fin 768))
      (fun a => match a with
        | ⟨0, _⟩ => by show r.val = 0 + r.val * (0 + 1); omega
        | ⟨1, _⟩ => by show b.val * 192 + f.val = 0 + (b.val * 192 + f.val) * (0 + 1); omega)).trans ?_
    refine (shapeCast_apply _ shapeCasts_S10000x4x192_S10000x768 (ix2 (⟨r.val, hn⟩ : Fin 10000) (⟨b.val * 192 + f.val, by omega⟩ : Fin 768))
      (ix3 (⟨r.val, hn⟩ : Fin 10000) b f) (by
        rw [Shape.rowMajor_val_three, Shape.rowMajor_val_two]
        show (r.val * 4 + b.val) * 192 + f.val = r.val * 768 + (b.val * 192 + f.val)
        omega)).trans ?_
    refine (transpose_apply [1, 0, 2] _ transposes_S4x10000x192_S10000x4x192_1_0_2 (ix3 (⟨r.val, hn⟩ : Fin 10000) b f) (ix3 b (⟨r.val, hn⟩ : Fin 10000) f)
      (fun a => match a with | ⟨0, _⟩ => rfl | ⟨1, _⟩ => rfl | ⟨2, _⟩ => rfl)).trans ?_
    by_cases hf : f.val < 64
    · rw [dif_pos hf]
      exact concatenate_pair_apply_left (2 : Fin S4x10000x192.rank) x h concatenates_S4x10000x64_S4x10000x128_S4x10000x192_d2
        (ix3 b (⟨r.val, hn⟩ : Fin 10000) f) rfl (ix3 b (⟨r.val, hn⟩ : Fin 10000) (⟨f.val, hf⟩ : Fin 64))
        (fun a => match a with | ⟨0, _⟩ => rfl | ⟨1, _⟩ => rfl | ⟨2, _⟩ => rfl)
    · rw [dif_neg hf]
      exact concatenate_pair_apply_right (2 : Fin S4x10000x192.rank) x h concatenates_S4x10000x64_S4x10000x128_S4x10000x192_d2
        (ix3 b (⟨r.val, hn⟩ : Fin 10000) f) rfl rfl (ix3 b (⟨r.val, hn⟩ : Fin 10000) (⟨f.val - 64, by omega⟩ : Fin 128))
        (fun a => match a with | ⟨0, _⟩ => fun _ => rfl | ⟨1, _⟩ => fun _ => rfl | ⟨2, _⟩ => fun hb => absurd rfl hb)
        (by show f.val - 64 + 64 = f.val; omega)
  · rw [dif_neg hn]
    refine (pad_apply_of_not_inside ![0, 0] ![240, 0] ![0, 0] _ _ pads_S10000x768_S10240x768_02400_000 h_S_
      (ix2 r (⟨b.val * 192 + f.val, by omega⟩ : Fin 768)) (0 : Fin S10000x768.rank) (by
        show ¬ (0 ≤ r.val ∧ (r.val - 0) % (0 + 1) = 0 ∧ (r.val - 0) / (0 + 1) < 10000)
        omega)).trans ?_
    show ((((0#32 : BitVec 32).toInt : ℤ) : ℝ) : EReal) = 0
    simp

theorem outfinal_apply (c : Dev nD) (b : Fin 4) (n : Fin 10000) (f : Fin 192) :
    V5 m ρ c main_v32 (ix3 b n f)
      = V4 m ρ c main_v29 (ix2 (⟨n.val, by have := n.isLt; omega⟩ : Fin 10240) (⟨b.val * 192 + f.val, by have := b.isLt; have := f.isLt; omega⟩ : Fin 768)) := by
  have e : V5 m ρ c main_v32 = transpose S4x10000x192 [1, 0, 2]
      (shapeCast S10000x4x192 (extractStridedSlice S10000x768 ![0, 0] (W4 m ρ c (Proc.devRef .tc main_v29)) slices_S10240x768_S10000x768_0_0) shapeCasts_S10000x768_S10000x4x192)
      transposes_S10000x4x192_S4x10000x192_1_0_2 := by
    show StableHlo.after hostOps2 _ (Proc.devRef .tc main_v32) = _
    after_results
    rfl
  rw [e]
  show _ = W4 m ρ c (Proc.devRef .tc main_v29) _
  generalize W4 m ρ c (Proc.devRef .tc main_v29) = X
  refine (transpose_apply [1, 0, 2] _ transposes_S10000x4x192_S4x10000x192_1_0_2 (ix3 b n f) (ix3 n b f)
    (fun a => match a with | ⟨0, _⟩ => rfl | ⟨1, _⟩ => rfl | ⟨2, _⟩ => rfl)).trans ?_
  refine (shapeCast_apply _ shapeCasts_S10000x768_S10000x4x192 (ix3 n b f)
    (ix2 n (⟨b.val * 192 + f.val, by have := b.isLt; have := f.isLt; omega⟩ : Fin 768)) (by
      rw [Shape.rowMajor_val_two, Shape.rowMajor_val_three]
      show n.val * 768 + (b.val * 192 + f.val) = (n.val * 4 + b.val) * 192 + f.val
      omega)).trans ?_
  exact slice2_axis0_apply 0 X slices_S10240x768_S10000x768_0_0 n _ _ (by show n.val = 0 + n.val; omega)

theorem lwT_apply (c : Dev nD) (cc : Fin 192) (q : Fin 128) :
    V5 m ρ c main_v33 (ix2 cc q) = m ((c.tc : Thread nD τ).loc main_arg3) (ix2 q cc) := by
  have e : V5 m ρ c main_v33 = transpose S192x128 [1, 0] (W4 m ρ c (Proc.devRef .tc main_arg3)) transposes_S128x192_S192x128_1_0 := by
    show StableHlo.after hostOps2 _ (Proc.devRef .tc main_v33) = _
    after_results
  rw [e, W4_arg m ρ c main_arg3 (by decide) (by decide) (by decide) (by decide)]
  exact transpose_ix2_apply _ _ cc q
theorem wiT_apply (c : Dev nD) (d : Fin 64) (g : Fin 384) :
    V5 m ρ c main_v34 (ix2 d g) = m ((c.tc : Thread nD τ).loc main_arg5) (ix2 g d) := by
  have e : V5 m ρ c main_v34 = transpose S64x384 [1, 0] (W4 m ρ c (Proc.devRef .tc main_arg5)) transposes_S384x64_S64x384_1_0 := by
    show StableHlo.after hostOps2 _ (Proc.devRef .tc main_v34) = _
    after_results
  rw [e, W4_arg m ρ c main_arg5 (by decide) (by decide) (by decide) (by decide)]
  exact transpose_ix2_apply _ _ d g
theorem whT_apply (c : Dev nD) (q : Fin 128) (g : Fin 384) :
    V5 m ρ c main_v35 (ix2 q g) = m ((c.tc : Thread nD τ).loc main_arg6) (ix2 g q) := by
  have e : V5 m ρ c main_v35 = transpose S128x384 [1, 0] (W4 m ρ c (Proc.devRef .tc main_arg6)) transposes_S384x128_S128x384_1_0 := by
    show StableHlo.after hostOps2 _ (Proc.devRef .tc main_v35) = _
    after_results
  rw [e, W4_arg m ρ c main_arg6 (by decide) (by decide) (by decide) (by decide)]
  exact transpose_ix2_apply _ _ q g

end Cert.KernelIdeal.Hand

end
-- ==== Proof.KI.Bridge.lean ====
import proofs.«416083_j74431783240178_1_alg».proof.Proof.KI.ValDiffuse0
import proofs.«416083_j74431783240178_1_alg».proof.Proof.KI.ValDiffuse1
import proofs.«416083_j74431783240178_1_alg».proof.Proof.KI.ValGru
import proofs.«416083_j74431783240178_1_alg».proof.Proof.KI.ValHost
import proofs.«416083_j74431783240178_1_alg».proof.Proof.KI.Frame
import proofs.«416083_j74431783240178_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem V3_adj (c : Dev nD) : V3 m ρ c main_v23 = V2 m ρ c main_v23 :=
  (W3_arr m ρ c 0).trans (((dat0 (V2 m ρ) c).arrAt_in 0 rfl _).trans (A_eq0 (V2 m ρ) c 0))

theorem round1 (c : Dev nD) (hE : Cert.Spec.InRange (m ((c.tc : Thread nD τ).loc main_arg2))) (r : Fin 10240) (b : Fin 4) (f : Fin 192) :
    V3 m ρ c main_v28 (ix2 r (⟨b.val * 192 + f.val, by have := b.isLt; have := f.isLt; omega⟩ : Fin 768))
      = Cert.Spec.diffuse (m ((c.tc : Thread nD τ).loc main_arg2))
          (Cert.Spec.feat0 (m ((c.tc : Thread nD τ).loc main_arg0)) (m ((c.tc : Thread nD τ).loc main_arg1))) b r.val f := by
  rw [show V3 m ρ c main_v28 = (dat0 (F := Ideal) (V2 m ρ) c).arrAt 2 cfg0.N from W3_arr m ρ c 2, arr0_final (V2 m ρ) c _ _ rfl rfl]
  simp only [adj_apply m ρ c hE, feat_apply m ρ c]
  exact Cert.Spec.adj_mul_sum _ 10240 (fun p => lt_trans (Cert.Spec.endpoint_lt hE 0 p) (by norm_num)) r.val
    (fun r' => Cert.Spec.feat0 (m ((c.tc : Thread nD τ).loc main_arg0)) (m ((c.tc : Thread nD τ).loc main_arg1)) b r' f)

theorem round2 (c : Dev nD) (hE : Cert.Spec.InRange (m ((c.tc : Thread nD τ).loc main_arg2))) (n : Fin 10240) (b : Fin 4) (f : Fin 192) :
    V4 m ρ c main_v29 (ix2 n (⟨b.val * 192 + f.val, by have := b.isLt; have := f.isLt; omega⟩ : Fin 768))
      = Cert.Spec.diffuse (m ((c.tc : Thread nD τ).loc main_arg2)) (Cert.Spec.diffuse (m ((c.tc : Thread nD τ).loc main_arg2))
          (Cert.Spec.feat0 (m ((c.tc : Thread nD τ).loc main_arg0)) (m ((c.tc : Thread nD τ).loc main_arg1)))) b n.val f := by
  rw [show V4 m ρ c main_v29 = (dat1 (F := Ideal) (V3 m ρ) c).arrAt 2 cfg1.N from W4_arr m ρ c 2, arr1_final (V3 m ρ) c _ _ rfl rfl]
  simp only [V3_adj m ρ c, adj_apply m ρ c hE, round1 m ρ c hE]
  exact Cert.Spec.adj_mul_sum _ 10240 (fun p => lt_trans (Cert.Spec.endpoint_lt hE 0 p) (by norm_num)) n.val
    (fun r' => Cert.Spec.diffuse (m ((c.tc : Thread nD τ).loc main_arg2))
      (Cert.Spec.feat0 (m ((c.tc : Thread nD τ).loc main_arg0)) (m ((c.tc : Thread nD τ).loc main_arg1))) b r' f)

theorem V5_arg (c : Dev nD) (b : Ref sig .tc) (h0 : b ∉ hostOps0_W) (h1 : b ∉ hostOps0_1_W) (h2 : b ∉ hostOps2_W)
    (ha0 : ∀ w, Pipeline.arrRef spec0 w ≠ b) (ha1 : ∀ w, Pipeline.arrRef spec1 w ≠ b) :
    V5 m ρ c b = m ((c : Thread nD τ).loc b) := W5_of_untouched m ρ c b h0 h1 h2 ha0 ha1

theorem kernel_result (c : Dev nD) (hE : Cert.Spec.InRange (m ((c.tc : Thread nD τ).loc main_arg2))) :
    (dat2 (F := Ideal) (V5 m ρ) c).arrAt 8 cfg2.N
      = Cert.Spec.result (m ((c.tc : Thread nD τ).loc main_arg2)) (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  funext j
  obtain ⟨b, n, k, rfl⟩ : ∃ (b : Fin 4) (n : Fin 10000) (k : Fin 128), j = ix3 b n k := ⟨j 0, j 1, j 2, eq_ix3 j⟩
  rw [arr2_final]
  unfold Cert.Spec.result
  have hy : (fun cc : Fin 192 => V5 m ρ c main_v32 (ix3 b n cc))
      = fun cc => Cert.Spec.diffuse (m ((c.tc : Thread nD τ).loc main_arg2)) (Cert.Spec.diffuse (m ((c.tc : Thread nD τ).loc main_arg2))
          (Cert.Spec.feat0 (m ((c.tc : Thread nD τ).loc main_arg0)) (m ((c.tc : Thread nD τ).loc main_arg1)))) b n.val cc :=
    funext fun cc => (outfinal_apply m ρ c b n cc).trans (round2 m ρ c hE ⟨n.val, by have := n.isLt; omega⟩ b cc)
  have hx : V5 m ρ c main_arg0 = m ((c.tc : Thread nD τ).loc main_arg0) := V5_arg m ρ c main_arg0 (by decide) (by decide) (by decide) (by decide) (by decide)
  have h4 : V5 m ρ c main_arg4 = m ((c.tc : Thread nD τ).loc main_arg4) := V5_arg m ρ c main_arg4 (by decide) (by decide) (by decide) (by decide) (by decide)
  have h7 : V5 m ρ c main_arg7 = m ((c.tc : Thread nD τ).loc main_arg7) := V5_arg m ρ c main_arg7 (by decide) (by decide) (by decide) (by decide) (by decide)
  have h8 : V5 m ρ c main_arg8 = m ((c.tc : Thread nD τ).loc main_arg8) := V5_arg m ρ c main_arg8 (by decide) (by decide) (by decide) (by decide) (by decide)
  have hlw : (fun i : Cert.Spec.SLw.Idx => V5 m ρ c main_v33 (ix2 (i 1) (i 0))) = m ((c.tc : Thread nD τ).loc main_arg3) :=
    funext fun i => (lwT_apply m ρ c (i 1) (i 0)).trans (congrArg _ (eq_ix2 i).symm)
  have hwi : (fun i : Cert.Spec.SWi.Idx => V5 m ρ c main_v34 (ix2 (i 1) (i 0))) = m ((c.tc : Thread nD τ).loc main_arg5) :=
    funext fun i => (wiT_apply m ρ c (i 1) (i 0)).trans (congrArg _ (eq_ix2 i).symm)
  have hwh : (fun i : Cert.Spec.SWh.Idx => V5 m ρ c main_v35 (ix2 (i 1) (i 0))) = m ((c.tc : Thread nD τ).loc main_arg6) :=
    funext fun i => (whT_apply m ρ c (i 1) (i 0)).trans (congrArg _ (eq_ix2 i).symm)
  rw [hy, hx, h4, h7, h8, hlw, hwi, hwh]

end Cert.KernelIdeal.Hand

end
-- ==== Proof.SameProgram.lean ====
import proofs.«416083_j74431783240178_1_alg».proof.Defs
import proofs.«416083_j74431783240178_1_alg».proof.Proof.Gen.Kernel
import proofs.«416083_j74431783240178_1_alg».proof.Proof.Gen.KernelIdeal
import proofs.«416083_j74431783240178_1_alg».proof.Proof.Gen.Pre_finite_inputs
import proofs.«416083_j74431783240178_1_alg».proof.Proof.KI.Frame

set_option maxRecDepth 16384

namespace Cert.Proof

open Idealize.ShloMosaic Idealize.SL.Sem

variable {F : FTy → Type} [FloatOps F]

-- `Kernel` and `KernelIdeal` are one term, label by label, so a frame proved at every float instance is a frame of both.
set_option maxHeartbeats 1000000 in
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun ℓ => funext fun a => ?_)
  fin_cases ℓ <;> rfl

theorem defs_eq : @Cert.Kernel.defs F _ Cert.Kernel.Gen.facts = @Cert.KernelIdeal.defs F _ Cert.KernelIdeal.Gen.facts :=
  congrArg (Pipeline.defs _) defs₀_eq

set_option maxHeartbeats 1000000 in
theorem main_eq : @Cert.Kernel.main F _ Cert.Kernel.Gen.facts = @Cert.KernelIdeal.main F _ Cert.KernelIdeal.Gen.facts := rfl

theorem frame_word : Cert.frame_Kernel (hKernel := Cert.Kernel.Gen.facts) (hPre_finite_inputs := Cert.Pre_finite_inputs.Gen.facts) :=
  fun m ρ _ => by
    rw [defs_eq, main_eq]
    exact Cert.KernelIdeal.Hand.frame (F := Bits) m ρ

end Cert.Proof
-- ==== Proof.Ref.Round.lean ====
import proofs.«416083_j74431783240178_1_alg».proof.Proof.Spec
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.ReferenceIdeal.Hand.Round

open Idealize.ShloMosaic Idealize.ShloMosaic.ValueIdx

abbrev SN : Shape := ⟨3, ![4, 10000, 192]⟩
abbrev SI : Shape := ⟨2, ![170000, 1]⟩
abbrev SU : Shape := ⟨3, ![4, 170000, 192]⟩

def dS : ScatterDims SN SI SU where
  updateWindowDims := [0, 2]
  insertedWindowDims := [1]
  scatterDimsToOperandDims := [1]
  indexVectorDim := 1

def dG : GatherDims SN SI SU where
  offsetDims := [0, 2]
  collapsedSliceDims := [1]
  operandBatchingDims := []
  startIndicesBatchingDims := []
  startIndexMap := [1]
  indexVectorDim := 1
  sliceSizes := ![4, 1, 192]

theorem dS_siIdx (b : Fin 4) (p : Fin 170000) (f : Fin 192) :
    dS.siIdx (ix3 b p f) ⟨List.idxOf (1 : Fin 3) dS.scatterDimsToOperandDims, List.idxOf_lt_length_iff.2 (by decide)⟩ = ix2 p (0 : Fin 1) := by
  funext a; refine Fin.ext ?_
  match a with
  | ⟨0, _⟩ => rfl
  | ⟨1, _⟩ => rfl

theorem dS_start0 {w : Nat} (b : Fin 4) (p : Fin 170000) (f : Fin 192) (idx : IVec SI w) : dS.start (ix3 b p f) idx 0 = 0 := by
  unfold ScatterDims.start
  rw [dif_neg (show ¬(0 : Fin SN.rank) ∈ dS.scatterDimsToOperandDims by decide)]

theorem dS_start2 {w : Nat} (b : Fin 4) (p : Fin 170000) (f : Fin 192) (idx : IVec SI w) : dS.start (ix3 b p f) idx 2 = 0 := by
  unfold ScatterDims.start
  rw [dif_neg (show ¬(2 : Fin SN.rank) ∈ dS.scatterDimsToOperandDims by decide)]

theorem dS_start1 {w : Nat} (b : Fin 4) (p : Fin 170000) (f : Fin 192) (idx : IVec SI w) :
    dS.start (ix3 b p f) idx 1 = (idx (ix2 p (0 : Fin 1))).toInt := by
  unfold ScatterDims.start
  rw [dif_pos (show (1 : Fin SN.rank) ∈ dS.scatterDimsToOperandDims by decide), dS_siIdx]

theorem dS_window0 (b : Fin 4) (p : Fin 170000) (f : Fin 192) : dS.window (ix3 b p f) 0 = b.val := by
  unfold ScatterDims.window
  rw [dif_pos (show (0 : Fin SN.rank) ∈ dS.sKept by decide)]
  rfl
theorem dS_window1 (b : Fin 4) (p : Fin 170000) (f : Fin 192) : dS.window (ix3 b p f) 1 = 0 := by
  unfold ScatterDims.window
  rw [dif_neg (show ¬(1 : Fin SN.rank) ∈ dS.sKept by decide)]
theorem dS_window2 (b : Fin 4) (p : Fin 170000) (f : Fin 192) : dS.window (ix3 b p f) 2 = f.val := by
  unfold ScatterDims.window
  rw [dif_pos (show (2 : Fin SN.rank) ∈ dS.sKept by decide)]
  rfl

theorem dS_resultIdx {w : Nat} (b : Fin 4) (p : Fin 170000) (f : Fin 192) (idx : IVec SI w) (t : Fin 10000)
    (ht : (idx (ix2 p (0 : Fin 1))).toInt = (t.val : Int)) :
    dS.resultIdx? (ix3 b p f) idx = some (ix3 b t f) := by
  have key : ∀ a : Fin SN.rank, dS.start (ix3 b p f) idx a + (dS.window (ix3 b p f) a : Int) = ((ix3 b t f : SN.Idx) a).val := by
    intro a
    match a with
    | ⟨0, _⟩ => exact (by rw [dS_start0, dS_window0]; simp : dS.start (ix3 b p f) idx 0 + (dS.window (ix3 b p f) 0 : Int) = (b.val : Int))
    | ⟨1, _⟩ => exact (by rw [dS_start1, dS_window1, ht]; simp : dS.start (ix3 b p f) idx 1 + (dS.window (ix3 b p f) 1 : Int) = (t.val : Int))
    | ⟨2, _⟩ => exact (by rw [dS_start2, dS_window2]; simp : dS.start (ix3 b p f) idx 2 + (dS.window (ix3 b p f) 2 : Int) = (f.val : Int))
  unfold ScatterDims.resultIdx?
  rw [dif_pos (fun a => by rw [key a]; exact ⟨Int.natCast_nonneg _, by exact_mod_cast ((ix3 b t f : SN.Idx) a).isLt⟩)]
  refine congrArg some (funext fun a => Fin.ext ?_)
  show (dS.start (ix3 b p f) idx a + (dS.window (ix3 b p f) a : Int)).toNat = _
  rw [key a]; exact Int.toNat_natCast _

theorem dG_siIdx (b : Fin 4) (p : Fin 170000) (f : Fin 192) :
    dG.siIdx (ix3 b p f) ⟨List.idxOf (1 : Fin 3) dG.startIndexMap, List.idxOf_lt_length_iff.2 (by decide)⟩ = ix2 p (0 : Fin 1) := by
  funext a; refine Fin.ext ?_
  match a with
  | ⟨0, _⟩ => rfl
  | ⟨1, _⟩ => rfl

theorem dG_coord0 {w : Nat} (b : Fin 4) (p : Fin 170000) (f : Fin 192) (idx : IVec SI w) :
    dG.start (ix3 b p f) idx 0 + dG.batchCoord (ix3 b p f) 0 + dG.offCoord (ix3 b p f) 0 = b.val := by
  rw [GatherDims.batchCoord_eq_zero _ _ _ (by decide)]
  unfold GatherDims.start GatherDims.offCoord
  rw [dif_neg (show ¬(0 : Fin SN.rank) ∈ dG.startIndexMap by decide), dif_pos (show (0 : Fin SN.rank) ∈ dG.sKept by decide)]
  show 0 + 0 + b.val = b.val
  omega

theorem dG_coord2 {w : Nat} (b : Fin 4) (p : Fin 170000) (f : Fin 192) (idx : IVec SI w) :
    dG.start (ix3 b p f) idx 2 + dG.batchCoord (ix3 b p f) 2 + dG.offCoord (ix3 b p f) 2 = f.val := by
  rw [GatherDims.batchCoord_eq_zero _ _ _ (by decide)]
  unfold GatherDims.start GatherDims.offCoord
  rw [dif_neg (show ¬(2 : Fin SN.rank) ∈ dG.startIndexMap by decide), dif_pos (show (2 : Fin SN.rank) ∈ dG.sKept by decide)]
  show 0 + 0 + f.val = f.val
  omega

theorem dG_coord1 {w : Nat} (b : Fin 4) (p : Fin 170000) (f : Fin 192) (idx : IVec SI w) :
    dG.start (ix3 b p f) idx 1 + dG.batchCoord (ix3 b p f) 1 + dG.offCoord (ix3 b p f) 1
      = min (idx (ix2 p (0 : Fin 1))).toInt.toNat 9999 := by
  rw [GatherDims.batchCoord_eq_zero _ _ _ (by decide), GatherDims.offCoord_eq_zero _ _ _ (by decide)]
  unfold GatherDims.start
  rw [dif_pos (show (1 : Fin SN.rank) ∈ dG.startIndexMap by decide), dG_siIdx]
  rfl

theorem dG_operandIdx {w : Nat} (b : Fin 4) (p : Fin 170000) (f : Fin 192) (idx : IVec SI w) (t : Fin 10000)
    (ht : (idx (ix2 p (0 : Fin 1))).toInt = (t.val : Int)) :
    dG.operandIdx (ix3 b p f) idx = ix3 b t f := by
  funext a; refine Fin.ext ?_
  match a with
  | ⟨0, _⟩ => exact dG_coord0 b p f idx
  | ⟨1, _⟩ =>
    refine (dG_coord1 b p f idx).trans ?_
    rw [ht, Int.toNat_natCast]
    show min t.val 9999 = t.val
    have := t.isLt; omega
  | ⟨2, _⟩ => exact dG_coord2 b p f idx

theorem sum_landing (R : SU.Idx → Option SN.Idx) (T : Fin 170000 → Fin 10000)
    (hR : ∀ (b : Fin 4) (p : Fin 170000) (f : Fin 192), R (ix3 b p f) = some (ix3 b (T p) f)) (upd : SU.Idx → EReal)
    (b : Fin 4) (n : Fin 10000) (f : Fin 192) [DecidablePred fun j => R j = some (ix3 b n f)] :
    ∑ j ∈ Finset.univ.filter (fun j => R j = some (ix3 b n f)), upd j
      = ∑ p : Fin 170000, if T p = n then upd (ix3 b p f) else 0 := by
  rw [← Finset.sum_filter]
  have hmem : ∀ (b' : Fin 4) (p' : Fin 170000) (f' : Fin 192), R (ix3 b' p' f') = some (ix3 b n f) → b' = b ∧ T p' = n ∧ f' = f := by
    intro b' p' f' hj
    rw [hR] at hj
    have e := Option.some.inj hj
    exact ⟨congrFun e 0, congrFun e 1, congrFun e 2⟩
  refine Finset.sum_bij' (fun j _ => (j 1 : Fin 170000)) (fun p _ => ix3 b p f) ?_ ?_ ?_ ?_ ?_
  · intro j hj
    obtain ⟨b', p', f', rfl⟩ : ∃ (b' : Fin 4) (p' : Fin 170000) (f' : Fin 192), j = ix3 b' p' f' := ⟨j 0, j 1, j 2, eq_ix3 j⟩
    exact Finset.mem_filter.2 ⟨Finset.mem_univ _, (hmem b' p' f' (Finset.mem_filter.1 hj).2).2.1⟩
  · intro p hp
    refine Finset.mem_filter.2 ⟨Finset.mem_univ _, ?_⟩
    rw [hR, (Finset.mem_filter.1 hp).2]
  · intro j hj
    obtain ⟨b', p', f', rfl⟩ : ∃ (b' : Fin 4) (p' : Fin 170000) (f' : Fin 192), j = ix3 b' p' f' := ⟨j 0, j 1, j 2, eq_ix3 j⟩
    obtain ⟨h0, _, h2⟩ := hmem b' p' f' (Finset.mem_filter.1 hj).2
    subst h0; subst h2; rfl
  · intro p _; rfl
  · intro j hj
    obtain ⟨b', p', f', rfl⟩ : ∃ (b' : Fin 4) (p' : Fin 170000) (f' : Fin 192), j = ix3 b' p' f' := ⟨j 0, j 1, j 2, eq_ix3 j⟩
    obtain ⟨h0, _, h2⟩ := hmem b' p' f' (Finset.mem_filter.1 hj).2
    subst h0; subst h2; rfl

theorem round_apply (z y : SN.Idx → EReal) (hz : ∀ i, z i = 0) (tgt src : IVec SI 32) (T S : Fin 170000 → Fin 10000)
    (htgt : ∀ p : Fin 170000, (tgt (ix2 p (0 : Fin 1))).toInt = ((T p).val : Int))
    (hsrc : ∀ p : Fin 170000, (src (ix2 p (0 : Fin 1))).toInt = ((S p).val : Int))
    (b : Fin 4) (n : Fin 10000) (f : Fin 192) :
    Ideal.hostScatterAdd dS z tgt (Host.gather dG y src) (ix3 b n f)
      = ∑ p : Fin 170000, if T p = n then y (ix3 b (S p) f) else 0 := by
  unfold Ideal.hostScatterAdd
  show z (ix3 b n f) + _ = _
  rw [hz, zero_add, sum_landing (fun j => dS.resultIdx? j tgt) T (fun b p f => dS_resultIdx b p f tgt (T p) (htgt p))]
  refine Finset.sum_congr rfl fun p _ => ?_
  show (if T p = n then y (dG.operandIdx (ix3 b p f) src) else 0) = _
  rw [dG_operandIdx b p f src (S p) (hsrc p)]

open Cert.Spec in
theorem round_diffuse (E : SE.Idx → BitVec 32) (hE : InRange E) (z y : SN.Idx → EReal) (hz : ∀ i, z i = 0) (tgt src : IVec SI 32)
    (htgt : ∀ p : Fin 170000, tgt (ix2 p (0 : Fin 1)) = BitVec.ofNat 32 (endpoint E 1 p))
    (hsrc : ∀ p : Fin 170000, src (ix2 p (0 : Fin 1)) = BitVec.ofNat 32 (endpoint E 0 p))
    (Y : Fin 4 → ℕ → Fin 192 → EReal) (hY : ∀ (b : Fin 4) (m : Fin 10000) (f : Fin 192), y (ix3 b m f) = Y b m.val f)
    (b : Fin 4) (n : Fin 10000) (f : Fin 192) :
    Ideal.hostScatterAdd dS z tgt (Host.gather dG y src) (ix3 b n f) = diffuse E Y b n.val f := by
  have hlt : ∀ (row : Fin 2) (p : Fin 170000), endpoint E row p < 2 ^ 31 := fun row p =>
    lt_trans (endpoint_lt hE row p) (by norm_num)
  rw [round_apply z y hz tgt src (fun p => ⟨endpoint E 1 p, endpoint_lt hE 1 p⟩) (fun p => ⟨endpoint E 0 p, endpoint_lt hE 0 p⟩)
    (fun p => by rw [htgt p]; exact StableHlo.Predicate.toInt_ofNat_small _ (hlt 1 p))
    (fun p => by rw [hsrc p]; exact StableHlo.Predicate.toInt_ofNat_small _ (hlt 0 p))]
  unfold diffuse
  refine Finset.sum_congr rfl fun p _ => ?_
  rw [hY]
  by_cases h : endpoint E 1 p = n.val
  · rw [if_pos h, if_pos (Fin.ext h)]
  · rw [if_neg h, if_neg (fun e => h (congrArg Fin.val e))]

end Cert.ReferenceIdeal.Hand.Round

end
-- ==== Proof.Ref.Idx.lean ====
import proofs.«416083_j74431783240178_1_alg».proof.Proof.Gen.ReferenceIdeal.Read
import proofs.«416083_j74431783240178_1_alg».proof.Proof.Spec
import Idealize.ShloMosaic.Lib.ValueIdx
import Idealize.ShloMosaic.Lib.Pipeline.Value
import Idealize.ShloMosaic.Lib.StableHlo.Predicate

set_option maxRecDepth 16384

noncomputable section

open scoped BigOperators

namespace Cert.ReferenceIdeal.Hand

open Cert.ReferenceIdeal Cert.ReferenceIdeal.Read
open Idealize.ShloMosaic Idealize.ShloMosaic.ValueIdx

theorem v2_apply (x2 : (⟨S2x160000, .i32⟩ : BufTy).Contents (Elt Ideal)) (q : Fin 160000) :
    val_main_v2 (F := Ideal) x2 (ix1 q) = x2 (ix2 (0 : Fin 2) q) := by
  rw [val_main_v2_apply, val_main_v1_apply]
  refine congrArg x2 (funext fun a => Fin.ext ?_)
  match a with
  | ⟨0, _⟩ => rfl
  | ⟨1, _⟩ => exact Nat.mod_eq_of_lt q.isLt

theorem v5_apply (x2 : (⟨S2x160000, .i32⟩ : BufTy).Contents (Elt Ideal)) (q : Fin 160000) :
    val_main_v5 (F := Ideal) x2 (ix1 q) = x2 (ix2 (1 : Fin 2) q) := by
  rw [val_main_v5_apply, val_main_v4_apply]
  refine congrArg x2 (funext fun a => Fin.ext ?_)
  match a with
  | ⟨0, _⟩ => rfl
  | ⟨1, _⟩ => exact Nat.mod_eq_of_lt q.isLt

theorem v3_apply (x2 : (⟨S2x160000, .i32⟩ : BufTy).Contents (Elt Ideal)) (p : Fin 170000) :
    val_main_v3 (F := Ideal) x2 (ix1 p) = BitVec.ofNat 32 (Cert.Spec.endpoint x2 0 p) := by
  unfold val_main_v3 Cert.Spec.endpoint
  by_cases h : p.val < 160000
  · rw [dif_pos h]
    refine (concatenate_pair_apply_left (t := S170000) (s₁ := S160000) (s₂ := S10000) (0 : Fin 1) _ _ _ (ix1 p) rfl
      (ix1 (⟨p.val, h⟩ : Fin 160000)) (fun a => by match a with | ⟨0, _⟩ => rfl)).trans ?_
    rw [v2_apply]
    simp
  · rw [dif_neg h]
    refine (concatenate_pair_apply_right (t := S170000) (s₁ := S160000) (s₂ := S10000) (0 : Fin 1) _ _ _ (ix1 p) rfl rfl
      (ix1 (⟨p.val - 160000, by have := p.isLt; omega⟩ : Fin 10000)) (fun a ha => absurd (Subsingleton.elim _ _) ha)
      (by show (p.val - 160000) + 160000 = p.val; omega)).trans ?_
    rfl

theorem v6_apply (x2 : (⟨S2x160000, .i32⟩ : BufTy).Contents (Elt Ideal)) (p : Fin 170000) :
    val_main_v6 (F := Ideal) x2 (ix1 p) = BitVec.ofNat 32 (Cert.Spec.endpoint x2 1 p) := by
  unfold val_main_v6 Cert.Spec.endpoint
  by_cases h : p.val < 160000
  · rw [dif_pos h]
    refine (concatenate_pair_apply_left (t := S170000) (s₁ := S160000) (s₂ := S10000) (0 : Fin 1) _ _ _ (ix1 p) rfl
      (ix1 (⟨p.val, h⟩ : Fin 160000)) (fun a => by match a with | ⟨0, _⟩ => rfl)).trans ?_
    rw [v5_apply]
    simp
  · rw [dif_neg h]
    refine (concatenate_pair_apply_right (t := S170000) (s₁ := S160000) (s₂ := S10000) (0 : Fin 1) _ _ _ (ix1 p) rfl rfl
      (ix1 (⟨p.val - 160000, by have := p.isLt; omega⟩ : Fin 10000)) (fun a ha => absurd (Subsingleton.elim _ _) ha)
      (by show (p.val - 160000) + 160000 = p.val; omega)).trans ?_
    rfl

theorem select_nonneg (w a : BitVec 32) (hw : w.toNat < 2 ^ 31) : Scalar.select (IntOp.cmpi .slt w 0#32) a w = w := by
  have h0 : IntOp.cmpi .slt w 0#32 = 0#1 := eq_zero_of_ne_one (fun h => by
    have := (StableHlo.Predicate.slt_iff_toNat hw (by decide)).1 h
    simp at this)
  rw [h0]; exact select_zero _ _

theorem endpoint_word_lt {E : Cert.Spec.SE.Idx → BitVec 32} (hE : Cert.Spec.InRange E) (row : Fin 2) (p : Fin 170000) :
    (BitVec.ofNat 32 (Cert.Spec.endpoint E row p)).toNat < 2 ^ 31 := by
  rw [BitVec.toNat_ofNat]
  exact lt_of_le_of_lt (Nat.mod_le _ _) (lt_trans (Cert.Spec.endpoint_lt hE row p) (by norm_num))

theorem v13_col (x2 : (⟨S2x160000, .i32⟩ : BufTy).Contents (Elt Ideal)) (hE : Cert.Spec.InRange x2) (p : Fin 170000) :
    val_main_v13 (F := Ideal) x2 (ix2 p (0 : Fin 1)) = BitVec.ofNat 32 (Cert.Spec.endpoint x2 0 p) := by
  have e : idx_main_v13 (ix2 p (0 : Fin 1)) = ix1 p := funext fun a => by match a with | ⟨0, _⟩ => rfl
  rw [val_main_v13_apply, val_main_v12_apply, val_main_v9_apply, val_main_v8_apply, val_main_c_apply, e, v3_apply]
  exact select_nonneg _ _ (endpoint_word_lt hE 0 p)

theorem v21_col (x2 : (⟨S2x160000, .i32⟩ : BufTy).Contents (Elt Ideal)) (hE : Cert.Spec.InRange x2) (p : Fin 170000) :
    val_main_v21 (F := Ideal) x2 (ix2 p (0 : Fin 1)) = BitVec.ofNat 32 (Cert.Spec.endpoint x2 1 p) := by
  have e : idx_main_v21 (ix2 p (0 : Fin 1)) = ix1 p := funext fun a => by match a with | ⟨0, _⟩ => rfl
  rw [val_main_v21_apply, val_main_v20_apply, val_main_v17_apply, val_main_v16_apply, val_main_c_1_apply, e, v6_apply]
  exact select_nonneg _ _ (endpoint_word_lt hE 1 p)

theorem v28_col (x2 : (⟨S2x160000, .i32⟩ : BufTy).Contents (Elt Ideal)) (hE : Cert.Spec.InRange x2) (p : Fin 170000) :
    val_main_v28 (F := Ideal) x2 (ix2 p (0 : Fin 1)) = BitVec.ofNat 32 (Cert.Spec.endpoint x2 0 p) := by
  have e : idx_main_v28 (ix2 p (0 : Fin 1)) = ix1 p := funext fun a => by match a with | ⟨0, _⟩ => rfl
  rw [val_main_v28_apply, val_main_v27_apply, val_main_v24_apply, val_main_v23_apply, val_main_c_3_apply, e, v3_apply]
  exact select_nonneg _ _ (endpoint_word_lt hE 0 p)

theorem v36_col (x2 : (⟨S2x160000, .i32⟩ : BufTy).Contents (Elt Ideal)) (hE : Cert.Spec.InRange x2) (p : Fin 170000) :
    val_main_v36 (F := Ideal) x2 (ix2 p (0 : Fin 1)) = BitVec.ofNat 32 (Cert.Spec.endpoint x2 1 p) := by
  have e : idx_main_v36 (ix2 p (0 : Fin 1)) = ix1 p := funext fun a => by match a with | ⟨0, _⟩ => rfl
  rw [val_main_v36_apply, val_main_v35_apply, val_main_v32_apply, val_main_v31_apply, val_main_c_6_apply, e, v6_apply]
  exact select_nonneg _ _ (endpoint_word_lt hE 1 p)

theorem v7_apply (x0 : (⟨S4x10000x64, .f32⟩ : BufTy).Contents (Elt Ideal)) (x1 : (⟨S4x10000x128, .f32⟩ : BufTy).Contents (Elt Ideal))
    (b : Fin 4) (m : Fin 10000) (f : Fin 192) :
    val_main_v7 (F := Ideal) x0 x1 (ix3 b m f) = Cert.Spec.feat0 x0 x1 b m.val f := by
  unfold val_main_v7 Cert.Spec.feat0
  rw [dif_pos m.isLt]
  by_cases hf : f.val < 64
  · rw [dif_pos hf]
    exact concatenate_pair_apply_left (t := S4x10000x192) (s₁ := S4x10000x64) (s₂ := S4x10000x128) (2 : Fin 3) x0 x1 _ (ix3 b m f) rfl
      (ix3 b (⟨m.val, m.isLt⟩ : Fin 10000) (⟨f.val, hf⟩ : Fin 64))
      (fun a => by match a with | ⟨0, _⟩ => rfl | ⟨1, _⟩ => rfl | ⟨2, _⟩ => rfl)
  · rw [dif_neg hf]
    exact concatenate_pair_apply_right (t := S4x10000x192) (s₁ := S4x10000x64) (s₂ := S4x10000x128) (2 : Fin 3) x0 x1 _ (ix3 b m f) rfl rfl
      (ix3 b (⟨m.val, m.isLt⟩ : Fin 10000) (⟨f.val - 64, by have := f.isLt; omega⟩ : Fin 128))
      (fun a ha => by match a with | ⟨0, _⟩ => rfl | ⟨1, _⟩ => rfl | ⟨2, _⟩ => exact absurd rfl ha)
      (by show (f.val - 64) + 64 = f.val; omega)

end Cert.ReferenceIdeal.Hand

end
-- ==== Proof.Ref.Gru.lean ====
import proofs.«416083_j74431783240178_1_alg».proof.Proof.Gen.ReferenceIdeal.Read
import proofs.«416083_j74431783240178_1_alg».proof.Proof.Spec
import Idealize.ShloMosaic.Lib.ValueIdx
import Idealize.ShloMosaic.PureOps.Ideal.Laws

set_option maxRecDepth 16384

noncomputable section

open scoped BigOperators

namespace Cert.ReferenceIdeal.Hand

open Cert.ReferenceIdeal Cert.ReferenceIdeal.Read
open Idealize.ShloMosaic Idealize.ShloMosaic.ValueIdx

theorem v41_eq (x0 : (⟨S4x10000x64, .f32⟩ : BufTy).Contents (Elt Ideal)) (x1 : (⟨S4x10000x128, .f32⟩ : BufTy).Contents (Elt Ideal))
    (x2 : (⟨S2x160000, .i32⟩ : BufTy).Contents (Elt Ideal)) (x3 : (⟨S128x192, .f32⟩ : BufTy).Contents (Elt Ideal))
    (x4 : (⟨S128, .f32⟩ : BufTy).Contents (Elt Ideal)) (b : Fin 4) (n : Fin 10000) (q : Fin 128) :
    val_main_v41 (F := Ideal) x0 x1 x2 x3 x4 (ix3 b n q)
      = Cert.Spec.convOut (fun c => val_main_v37 (F := Ideal) x0 x1 x2 (ix3 b n c)) x3 x4 q := by
  have e1 : ∀ k : Fin 192, lidx_main_v38 (ix3 b n q) k = ix3 b n k := fun k => funext fun a => by
    match a with | ⟨0, _⟩ => rfl | ⟨1, _⟩ => rfl | ⟨2, _⟩ => rfl
  have e2 : ∀ k : Fin 192, ridx_main_v38 (ix3 b n q) k = ix2 q k := fun k => funext fun a => by
    match a with | ⟨0, _⟩ => rfl | ⟨1, _⟩ => rfl
  have e3 : idx_main_v39 (idx_main_v40 (ix3 b n q)) = ix1 q := funext fun a => by
    match a with | ⟨0, _⟩ => rfl
  rw [val_main_v41_apply, val_main_v38_apply, val_main_v40_apply, val_main_v39_apply, e3]
  simp only [e1, e2]
  rfl

theorem v45_eq (x0 : (⟨S4x10000x64, .f32⟩ : BufTy).Contents (Elt Ideal)) (x5 : (⟨S384x64, .f32⟩ : BufTy).Contents (Elt Ideal))
    (x7 : (⟨S384, .f32⟩ : BufTy).Contents (Elt Ideal)) (b : Fin 4) (n : Fin 10000) (g : Fin 384) :
    val_main_v45 (F := Ideal) x0 x5 x7 (ix3 b n g) = Cert.Spec.gateI (fun d => x0 (ix3 b n d)) x5 x7 g := by
  have e1 : ∀ k : Fin 64, lidx_main_v42 (ix3 b n g) k = ix3 b n k := fun k => funext fun a => by
    match a with | ⟨0, _⟩ => rfl | ⟨1, _⟩ => rfl | ⟨2, _⟩ => rfl
  have e2 : ∀ k : Fin 64, ridx_main_v42 (ix3 b n g) k = ix2 g k := fun k => funext fun a => by
    match a with | ⟨0, _⟩ => rfl | ⟨1, _⟩ => rfl
  have e3 : idx_main_v43 (idx_main_v44 (ix3 b n g)) = ix1 g := funext fun a => by
    match a with | ⟨0, _⟩ => rfl
  rw [val_main_v45_apply, val_main_v42_apply, val_main_v44_apply, val_main_v43_apply, e3]
  simp only [e1, e2]
  rfl

theorem v49_eq (x0 : (⟨S4x10000x64, .f32⟩ : BufTy).Contents (Elt Ideal)) (x1 : (⟨S4x10000x128, .f32⟩ : BufTy).Contents (Elt Ideal))
    (x2 : (⟨S2x160000, .i32⟩ : BufTy).Contents (Elt Ideal)) (x3 : (⟨S128x192, .f32⟩ : BufTy).Contents (Elt Ideal))
    (x4 : (⟨S128, .f32⟩ : BufTy).Contents (Elt Ideal)) (x6 : (⟨S384x128, .f32⟩ : BufTy).Contents (Elt Ideal))
    (x8 : (⟨S384, .f32⟩ : BufTy).Contents (Elt Ideal)) (b : Fin 4) (n : Fin 10000) (g : Fin 384) :
    val_main_v49 (F := Ideal) x0 x1 x2 x3 x4 x6 x8 (ix3 b n g)
      = Cert.Spec.gateH (Cert.Spec.convOut (fun c => val_main_v37 (F := Ideal) x0 x1 x2 (ix3 b n c)) x3 x4) x6 x8 g := by
  have e1 : ∀ k : Fin 128, lidx_main_v46 (ix3 b n g) k = ix3 b n k := fun k => funext fun a => by
    match a with | ⟨0, _⟩ => rfl | ⟨1, _⟩ => rfl | ⟨2, _⟩ => rfl
  have e2 : ∀ k : Fin 128, ridx_main_v46 (ix3 b n g) k = ix2 g k := fun k => funext fun a => by
    match a with | ⟨0, _⟩ => rfl | ⟨1, _⟩ => rfl
  have e3 : idx_main_v47 (idx_main_v48 (ix3 b n g)) = ix1 g := funext fun a => by
    match a with | ⟨0, _⟩ => rfl
  rw [val_main_v49_apply, val_main_v46_apply, val_main_v48_apply, val_main_v47_apply, e3]
  simp only [e1, e2, v41_eq]
  rfl

theorem sigmoid_eq (x : EReal) : Ideal.div Cert.Spec.one32 (Cert.Spec.one32 + Ideal.exp (-x)) = Ideal.logistic x := by
  rw [Cert.Spec.one32_eq]; rfl

theorem v77_eq (x0 : (⟨S4x10000x64, .f32⟩ : BufTy).Contents (Elt Ideal)) (x1 : (⟨S4x10000x128, .f32⟩ : BufTy).Contents (Elt Ideal))
    (x2 : (⟨S2x160000, .i32⟩ : BufTy).Contents (Elt Ideal)) (x3 : (⟨S128x192, .f32⟩ : BufTy).Contents (Elt Ideal))
    (x4 : (⟨S128, .f32⟩ : BufTy).Contents (Elt Ideal)) (x5 : (⟨S384x64, .f32⟩ : BufTy).Contents (Elt Ideal))
    (x6 : (⟨S384x128, .f32⟩ : BufTy).Contents (Elt Ideal)) (x7 : (⟨S384, .f32⟩ : BufTy).Contents (Elt Ideal))
    (x8 : (⟨S384, .f32⟩ : BufTy).Contents (Elt Ideal))
    (b : Fin 4) (n : Fin 10000) (k : Fin 128) :
    val_main_v77 (F := Ideal) x0 x1 x2 x3 x4 x5 x6 x7 x8 (ix3 b n k)
      = Cert.Spec.node (fun c => val_main_v37 (F := Ideal) x0 x1 x2 (ix3 b n c)) (fun d => x0 (ix3 b n d)) x3 x4 x5 x6 x7 x8 k := by
  have e50 : idx_main_v50 (ix3 b n k) = ix3 b n (⟨k.val, by have := k.isLt; omega⟩ : Fin 384) := funext fun a => by
    match a with | ⟨0, _⟩ => rfl | ⟨1, _⟩ => rfl | ⟨2, _⟩ => rfl
  have e51 : idx_main_v51 (ix3 b n k) = ix3 b n (⟨k.val + 128, by have := k.isLt; omega⟩ : Fin 384) := funext fun a => by
    match a with | ⟨0, _⟩ => rfl | ⟨1, _⟩ => rfl | ⟨2, _⟩ => exact Fin.ext (Nat.add_comm _ _)
  have e52 : idx_main_v52 (ix3 b n k) = ix3 b n (⟨k.val + 256, by have := k.isLt; omega⟩ : Fin 384) := funext fun a => by
    match a with | ⟨0, _⟩ => rfl | ⟨1, _⟩ => rfl | ⟨2, _⟩ => exact Fin.ext (Nat.add_comm _ _)
  have e53 : idx_main_v53 (ix3 b n k) = ix3 b n (⟨k.val, by have := k.isLt; omega⟩ : Fin 384) := funext fun a => by
    match a with | ⟨0, _⟩ => rfl | ⟨1, _⟩ => rfl | ⟨2, _⟩ => rfl
  have e54 : idx_main_v54 (ix3 b n k) = ix3 b n (⟨k.val + 128, by have := k.isLt; omega⟩ : Fin 384) := funext fun a => by
    match a with | ⟨0, _⟩ => rfl | ⟨1, _⟩ => rfl | ⟨2, _⟩ => exact Fin.ext (Nat.add_comm _ _)
  have e55 : idx_main_v55 (ix3 b n k) = ix3 b n (⟨k.val + 256, by have := k.isLt; omega⟩ : Fin 384) := funext fun a => by
    match a with | ⟨0, _⟩ => rfl | ⟨1, _⟩ => rfl | ⟨2, _⟩ => exact Fin.ext (Nat.add_comm _ _)
  rw [val_main_v77_apply, val_main_v75_apply, val_main_v76_apply, val_main_v74_apply, val_main_v73_apply, val_main_cst_12_apply,
    val_main_v72_apply, val_main_v71_apply, val_main_v70_apply, val_main_v69_apply, val_main_v68_apply, val_main_cst_11_apply,
    val_main_v67_apply, val_main_v66_apply, val_main_cst_10_apply, val_main_v65_apply, val_main_v64_apply, val_main_v63_apply,
    val_main_v62_apply, val_main_v61_apply, val_main_cst_9_apply, val_main_v60_apply, val_main_v59_apply, val_main_cst_8_apply,
    val_main_v58_apply, val_main_v57_apply, val_main_v56_apply, val_main_v50_apply, val_main_v51_apply, val_main_v52_apply,
    val_main_v53_apply, val_main_v54_apply, val_main_v55_apply, e50, e51, e52, e53, e54, e55,
    v45_eq, v45_eq, v45_eq, v49_eq, v49_eq, v49_eq, v41_eq]
  simp only [Ideal.hostDivf_def, Ideal.addf_def, Ideal.subf_def, Ideal.mulf_def, Ideal.hostUnary_exp_def, Ideal.hostUnary_tanh_def,
    Ideal.hostNegf_def, Ideal.negf_def, Ideal.ofBits_def]
  rw [sigmoid_eq, sigmoid_eq]
  rfl

end Cert.ReferenceIdeal.Hand

end
-- ==== Proof.Ref.Val.lean ====
import proofs.«416083_j74431783240178_1_alg».proof.Proof.Gen.ReferenceIdeal.Run
import proofs.«416083_j74431783240178_1_alg».proof.Proof.Gen.ReferenceIdeal.Read
import proofs.«416083_j74431783240178_1_alg».proof.Proof.Spec
import proofs.«416083_j74431783240178_1_alg».proof.Proof.Ref.Round
import proofs.«416083_j74431783240178_1_alg».proof.Proof.Ref.Idx
import proofs.«416083_j74431783240178_1_alg».proof.Proof.Ref.Gru
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

open scoped BigOperators

namespace Cert.ReferenceIdeal.Hand

open Cert.ReferenceIdeal Cert.ReferenceIdeal.Read
open Idealize.ShloMosaic Idealize.ShloMosaic.ValueIdx

theorem scatter_eq : scatter_S4x10000x192_S170000x1_S4x170000x192_02_1_1_1 = Round.dS := rfl
theorem gather_eq : gather_S4x10000x192_S170000x1_S4x170000x192_02_1_n_n_1_1_41192 = Round.dG := rfl

theorem v15_zero (i : S4x10000x192.Idx) : val_main_v15 (F := Ideal) i = 0 := by
  rw [val_main_v15_apply, val_main_cst_apply]; exact Ideal.ofBits_zero_f32
theorem v30_zero (i : S4x10000x192.Idx) : val_main_v30 (F := Ideal) i = 0 := by
  rw [val_main_v30_apply, val_main_cst_5_apply]; exact Ideal.ofBits_zero_f32

theorem v22_eq (x0 : (⟨S4x10000x64, .f32⟩ : BufTy).Contents (Elt Ideal)) (x1 : (⟨S4x10000x128, .f32⟩ : BufTy).Contents (Elt Ideal))
    (x2 : (⟨S2x160000, .i32⟩ : BufTy).Contents (Elt Ideal)) (hE : Cert.Spec.InRange x2) (b : Fin 4) (n : Fin 10000) (f : Fin 192) :
    val_main_v22 (F := Ideal) x0 x1 x2 (ix3 b n f) = Cert.Spec.diffuse x2 (Cert.Spec.feat0 x0 x1) b n.val f := by
  unfold val_main_v22 val_main_v14
  rw [scatter_eq, gather_eq]
  exact Round.round_diffuse x2 hE (val_main_v15 (F := Ideal)) (val_main_v7 (F := Ideal) x0 x1) v15_zero
    (val_main_v21 (F := Ideal) x2) (val_main_v13 (F := Ideal) x2) (v21_col x2 hE) (v13_col x2 hE)
    (Cert.Spec.feat0 x0 x1) (v7_apply x0 x1) b n f

theorem v37_eq (x0 : (⟨S4x10000x64, .f32⟩ : BufTy).Contents (Elt Ideal)) (x1 : (⟨S4x10000x128, .f32⟩ : BufTy).Contents (Elt Ideal))
    (x2 : (⟨S2x160000, .i32⟩ : BufTy).Contents (Elt Ideal)) (hE : Cert.Spec.InRange x2) (b : Fin 4) (n : Fin 10000) (f : Fin 192) :
    val_main_v37 (F := Ideal) x0 x1 x2 (ix3 b n f)
      = Cert.Spec.diffuse x2 (Cert.Spec.diffuse x2 (Cert.Spec.feat0 x0 x1)) b n.val f := by
  unfold val_main_v37 val_main_v29
  rw [scatter_eq, gather_eq]
  exact Round.round_diffuse x2 hE (val_main_v30 (F := Ideal)) (val_main_v22 (F := Ideal) x0 x1 x2) v30_zero
    (val_main_v36 (F := Ideal) x2) (val_main_v28 (F := Ideal) x2) (v36_col x2 hE) (v28_col x2 hE)
    (Cert.Spec.diffuse x2 (Cert.Spec.feat0 x0 x1)) (v22_eq x0 x1 x2 hE) b n f

theorem ref_result (x0 : (⟨S4x10000x64, .f32⟩ : BufTy).Contents (Elt Ideal)) (x1 : (⟨S4x10000x128, .f32⟩ : BufTy).Contents (Elt Ideal))
    (x2 : (⟨S2x160000, .i32⟩ : BufTy).Contents (Elt Ideal)) (x3 : (⟨S128x192, .f32⟩ : BufTy).Contents (Elt Ideal))
    (x4 : (⟨S128, .f32⟩ : BufTy).Contents (Elt Ideal)) (x5 : (⟨S384x64, .f32⟩ : BufTy).Contents (Elt Ideal))
    (x6 : (⟨S384x128, .f32⟩ : BufTy).Contents (Elt Ideal)) (x7 : (⟨S384, .f32⟩ : BufTy).Contents (Elt Ideal))
    (x8 : (⟨S384, .f32⟩ : BufTy).Contents (Elt Ideal)) (hE : Cert.Spec.InRange x2) :
    val_main_v77 (F := Ideal) x0 x1 x2 x3 x4 x5 x6 x7 x8 = Cert.Spec.result x2 x0 x1 x3 x4 x5 x6 x7 x8 := by
  funext j
  obtain ⟨b, n, k, rfl⟩ : ∃ (b : Fin 4) (n : Fin 10000) (k : Fin 128), j = ix3 b n k := ⟨j 0, j 1, j 2, eq_ix3 j⟩
  rw [v77_eq]
  have e : (fun c : Fin 192 => val_main_v37 (F := Ideal) x0 x1 x2 (ix3 b n c))
      = fun c => Cert.Spec.diffuse x2 (Cert.Spec.diffuse x2 (Cert.Spec.feat0 x0 x1)) b n.val c :=
    funext fun c => v37_eq x0 x1 x2 hE b n c
  rw [e]
  rfl

end Cert.ReferenceIdeal.Hand

end
-- ==== Proof.PreRange.lean ====
import proofs.«416083_j74431783240178_1_alg».proof.Pre_finite_inputs
import proofs.«416083_j74431783240178_1_alg».proof.Proof.Gen.Pre_finite_inputs
import proofs.«416083_j74431783240178_1_alg».proof.Proof.Spec
import Idealize.ShloMosaic.Lib.ReduceAll
import Idealize.ShloMosaic.Lib.StableHlo.Predicate
import Idealize.ShloMosaic.Lib.ValueIdx

noncomputable section

namespace Cert.Proof

open Idealize.ShloMosaic Idealize.ShloMosaic.ValueIdx

instance subsingleton_scalar_idx : Subsingleton Cert.Pre_finite_inputs.S_.Idx :=
  ⟨fun a b => funext fun d => d.elim0⟩

theorem toNat_lt_of_signed (w : BitVec 32) (h0 : IntOp.cmpi .sge w 0#32 = 1#1)
    (h1 : IntOp.cmpi .slt w 10000#32 = 1#1) : w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  have hlt := w.isLt
  unfold BitVec.toInt at h0 h1
  split at h0 <;> omega

theorem part2_entry {F : FTy → Type} [FloatOps F] (a2 : IVec Cert.Pre_finite_inputs.S2x160000 32)
    (a8 : FVec F Cert.Pre_finite_inputs.S384 .f32) (v33 : IVec Cert.Pre_finite_inputs.S_ 1)
    (h : Cert.Pre_finite_inputs.fn_part2 (F := F) a2 a8 v33 ix0 = 1#1) (i : Cert.Pre_finite_inputs.S2x160000.Idx) :
    IntOp.cmpi .sge (a2 i) 0#32 = 1#1 ∧ IntOp.cmpi .slt (a2 i) 10000#32 = 1#1 := by
  unfold Cert.Pre_finite_inputs.fn_part2 at h
  dsimp only at h
  obtain ⟨h42, h45⟩ := IntOp.andi_eq_one.1 h
  obtain ⟨-, h41⟩ := IntOp.andi_eq_one.1 h42
  have g0 := Host.reduce_andi_all _ _ _ _ _ h41 i
  have g1 := Host.reduce_andi_all _ _ _ _ _ h45 i
  exact ⟨g0, g1⟩

theorem inRange_of_pre {F : FTy → Type} [FloatOps F]
    (a0 : FVec F Cert.Pre_finite_inputs.S4x10000x64 .f32) (a1 : FVec F Cert.Pre_finite_inputs.S4x10000x128 .f32)
    (a2 : IVec Cert.Pre_finite_inputs.S2x160000 32) (a3 : FVec F Cert.Pre_finite_inputs.S128x192 .f32)
    (a4 : FVec F Cert.Pre_finite_inputs.S128 .f32) (a5 : FVec F Cert.Pre_finite_inputs.S384x64 .f32)
    (a6 : FVec F Cert.Pre_finite_inputs.S384x128 .f32) (a7 : FVec F Cert.Pre_finite_inputs.S384 .f32)
    (a8 : FVec F Cert.Pre_finite_inputs.S384 .f32)
    (h : Cert.Pre_finite_inputs.fn (F := F) a0 a1 a2 a3 a4 a5 a6 a7 a8 = fun _ => 1#1) :
    Cert.Spec.InRange a2 := by
  intro i
  have h0 := congrFun h ix0
  obtain ⟨g0, g1⟩ := part2_entry a2 a8 _ h0 i
  exact toNat_lt_of_signed _ g0 g1

end Cert.Proof

end
-- ==== Proof.lean ====
import proofs.«416083_j74431783240178_1_alg».proof.Defs
import proofs.«416083_j74431783240178_1_alg».proof.Proof.Gen.Kernel
import proofs.«416083_j74431783240178_1_alg».proof.Proof.Gen.KernelIdeal
import proofs.«416083_j74431783240178_1_alg».proof.Proof.Gen.ReferenceIdeal
import proofs.«416083_j74431783240178_1_alg».proof.Proof.Gen.ReferenceIdeal.Run
import proofs.«416083_j74431783240178_1_alg».proof.Proof.Gen.ReferenceIdeal.Read
import proofs.«416083_j74431783240178_1_alg».proof.Proof.Gen.Pre_finite_inputs
import proofs.«416083_j74431783240178_1_alg».proof.Proof.KI.Frame
import proofs.«416083_j74431783240178_1_alg».proof.Proof.KI.Bridge
import proofs.«416083_j74431783240178_1_alg».proof.Proof.SameProgram
import proofs.«416083_j74431783240178_1_alg».proof.Proof.Ref.Val
import proofs.«416083_j74431783240178_1_alg».proof.Proof.PreRange
import Idealize.ShloMosaic.Adequacy
import Idealize.ShloMosaic.Init

noncomputable section

namespace Cert.Proof

open Idealize.ShloMosaic Idealize.SL.Sem

theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree =>
    have hE : ∀ c : Dev Cert.KernelIdeal.nD, Cert.Spec.InRange (m ((c.tc : Thread Cert.KernelIdeal.nD Cert.KernelIdeal.τ).loc Cert.KernelIdeal.main_arg2)) :=
      fun c => inRange_of_pre _ _ _ _ _ _ _ _ _ (hpre c)
    have hE' : ∀ c : Dev Cert.ReferenceIdeal.nD, Cert.Spec.InRange (m' ((c.tc : Thread Cert.ReferenceIdeal.nD Cert.ReferenceIdeal.τ).loc Cert.ReferenceIdeal.main_arg2)) :=
      fun c => by rw [(hagree c).2.2.1]; exact hE c
    have hres : ∀ c : Dev Cert.ReferenceIdeal.nD,
        Cert.Spec.result (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
          = Cert.Spec.result (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
      fun c => by
        rw [(hagree c).1, (hagree c).2.1, (hagree c).2.2.1, (hagree c).2.2.2.1, (hagree c).2.2.2.2.1, (hagree c).2.2.2.2.2.1,
          (hagree c).2.2.2.2.2.2.1, (hagree c).2.2.2.2.2.2.2.1, (hagree c).2.2.2.2.2.2.2.2]
    ⟨fun c => Cert.Spec.result (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
      (θ_run Cert.KernelIdeal.defs _ _).mono
        (fun _ h c => ⟨(h c).1.trans (Cert.KernelIdeal.Hand.kernel_result m ρ c (hE c)), (h c).2⟩)
        (Cert.KernelIdeal.Hand.run_result (F := Ideal) m ρ),
      (θ_run Cert.ReferenceIdeal.defs _ _).mono
        (fun _ h c => ⟨((h c).1.trans (Cert.ReferenceIdeal.Read.val_main_v77_eq m' c)).trans
            ((Cert.ReferenceIdeal.Hand.ref_result _ _ _ _ _ _ _ _ _ (hE' c)).trans (hres c)), (h c).2⟩)
        (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_word,
  fun m ρ _ => Cert.KernelIdeal.Hand.frame m ρ,
  frame_ref,
  trivial,
  algebraic⟩

end Cert.Proof

end
